-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_v149)) (v2 : (c : Dev Cert.KernelIdeal.nD) → Buf (Elt Ideal) ((c.tc : Thread Cert.KernelIdeal.nD Cert.KernelIdeal.τ).loc Cert.KernelIdeal.main_v151)) (v3 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_v149) = v1 c
          ∧ r.2.mem ((c.tc : Thread Cert.KernelIdeal.nD Cert.KernelIdeal.τ).loc Cert.KernelIdeal.main_v151) = v2 c
          ∧ r.2.mem ((c.tc : Thread Cert.KernelIdeal.nD Cert.KernelIdeal.τ).loc Cert.KernelIdeal.main_v153) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v176) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S2000000 : Shape := ⟨1, ![2000000]⟩
abbrev S2x4000000 : Shape := ⟨2, ![2, 4000000]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg11 : FVec F S32x32 .f32) (main_arg12 : FVec F S32 .f32) (main_arg13 : FVec F S32x3 .f32) (main_arg14 : FVec F S3 .f32) (main_v33 : IVec S_ 1) : IVec S_ 1 :=
  let main_v34 : FVec F S32x32 .f32 := Host.absf main_arg11
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg12
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg13
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg14
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg7 : FVec F S1000000 .f32) (main_arg9 : FVec F S3x32 .f32) (main_arg10 : FVec F S32 .f32) (main_arg11 : FVec F S32x32 .f32) (main_arg12 : FVec F S32 .f32) (main_arg13 : FVec F S32x3 .f32) (main_arg14 : FVec F S3 .f32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S1000000 .f32 := Host.absf main_arg7
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S3x32 .f32 := Host.absf main_arg9
  let main_cst_8 : FVec F S_ .f32 := constant S_ .f32 0x7F800000#32
  let main_v25 : FVec F S3x32 .f32 := broadcastInDim S3x32 ![] bcast_S_S3x32 main_cst_8
  let main_v26 : IVec S3x32 1 := cmpf .olt main_v24 main_v25
  let main_c_9 : IVec S_ 1 := constantI S_ 1 1#1
  let main_v27 : IVec S_ 1 := (fun x v => Host.reduce IntOp.andi x v reducesTo_S3x32_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S1000000 .f32) (main_arg1 : FVec F S2000000 .f32) (main_arg2 : FVec F S2000000 .f32) (main_arg3 : FVec F S2000000 .f32) (main_arg4 : IVec S2000000 32) (main_arg5 : IVec S2000000 32) (main_arg6 : IVec S2000000 32) (main_arg7 : FVec F S1000000 .f32) (main_arg8 : IVec S2x4000000 32) (main_arg9 : FVec F S3x32 .f32) (main_arg10 : FVec F S32 .f32) (main_arg11 : FVec F S32x32 .f32) (main_arg12 : FVec F S32 .f32) (main_arg13 : FVec F S32x3 .f32) (main_arg14 : FVec F S3 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg7 main_arg9 main_arg10 main_arg11 main_arg12 main_arg13 main_arg14 main_v13 main_v16
-- ==== Kernel.lean ====
abbrev S1000000 : Shape := ⟨1, ![1000000]⟩
abbrev S2000000 : Shape := ⟨1, ![2000000]⟩
abbrev S2x4000000 : Shape := ⟨2, ![2, 4000000]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩
abbrev S2000000x1 : Shape := ⟨2, ![2000000, 1]⟩
abbrev S2000000x3 : Shape := ⟨2, ![2000000, 3]⟩
abbrev S2000000x32 : Shape := ⟨2, ![2000000, 32]⟩
abbrev S4000x3 : Shape := ⟨2, ![4000, 3]⟩
abbrev S4000x32 : Shape := ⟨2, ![4000, 32]⟩
abbrev S1x4000000 : Shape := ⟨2, ![1, 4000000]⟩
abbrev S4000000 : Shape := ⟨1, ![4000000]⟩
abbrev S4000000x1 : Shape := ⟨2, ![4000000, 1]⟩
abbrev S4000000x32 : Shape := ⟨2, ![4000000, 32]⟩
abbrev S1x32 : Shape := ⟨2, ![1, 32]⟩
abbrev S4000x1 : Shape := ⟨2, ![4000, 1]⟩
abbrev S1x3 : Shape := ⟨2, ![1, 3]⟩
abbrev S131072 : Shape := ⟨1, ![131072]⟩

abbrev nBuf : Space → Nat
  | .hbm => 205
  | .vmem => 44
  | .smem => 0
  | _ => 0

abbrev hbmTy0_0 (i : Nat) : BufTy := match i % 128 with
  | 0 => ⟨S1000000, .f32⟩
  | 1 => ⟨S2000000, .f32⟩
  | 2 => ⟨S2000000, .f32⟩
  | 3 => ⟨S2000000, .f32⟩
  | 4 => ⟨S2000000, .i32⟩
  | 5 => ⟨S2000000, .i32⟩
  | 6 => ⟨S2000000, .i32⟩
  | 7 => ⟨S1000000, .f32⟩
  | 8 => ⟨S2x4000000, .i32⟩
  | 9 => ⟨S3x32, .f32⟩
  | 10 => ⟨S32, .f32⟩
  | 11 => ⟨S32x32, .f32⟩
  | 12 => ⟨S32, .f32⟩
  | 13 => ⟨S32x3, .f32⟩
  | 14 => ⟨S3, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000, .f32⟩
  | 42 => ⟨S2000000x1, .f32⟩
  | 43 => ⟨S2000000x1, .f32⟩
  | 44 => ⟨S2000000x1, .f32⟩
  | 45 => ⟨S2000000x3, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000, .f32⟩
  | 73 => ⟨S2000000x1, .f32⟩
  | 74 => ⟨S2000000x1, .f32⟩
  | 75 => ⟨S2000000x1, .f32⟩
  | 76 => ⟨S2000000x3, .f32⟩
  | 77 => ⟨S2000000x1, .f32⟩
  | 78 => ⟨S2000000x1, .f32⟩
  | 79 => ⟨S2000000x1, .f32⟩
  | 80 => ⟨S2000000x3, .f32⟩
  | 81 => ⟨S2000000x3, .f32⟩
  | 82 => ⟨S2000000x32, .f32⟩
  | 83 => ⟨S1x4000000, .i32⟩
  | 84 => ⟨S4000000, .i32⟩
  | 85 => ⟨S1x4000000, .i32⟩
  | 86 => ⟨S4000000, .i32⟩
  | 87 => ⟨S_, .f32⟩
  | 88 => ⟨S2000000, .f32⟩
  | 89 => ⟨S_, .i32⟩
  | 90 => ⟨S4000000, .i32⟩
  | 91 => ⟨S4000000, .i1⟩
  | 92 => ⟨S_, .i32⟩
  | 93 => ⟨S4000000, .i32⟩
  | 94 => ⟨S4000000, .i32⟩
  | 95 => ⟨S4000000, .i32⟩
  | 96 => ⟨S4000000x1, .i32⟩
  | 97 => ⟨S_, .f32⟩
  | 98 => ⟨S4000000, .f32⟩
  | 99 => ⟨S2000000, .f32⟩
  | 100 => ⟨S_, .f32⟩
  | 101 => ⟨S2000000, .f32⟩
  | 102 => ⟨S2000000, .f32⟩
  | 103 => ⟨S2000000, .f32⟩
  | 104 => ⟨S_, .i32⟩
  | 105 => ⟨S4000000, .i32⟩
  | 106 => ⟨S4000000, .i1⟩
  | 107 => ⟨S_, .i32⟩
  | 108 => ⟨S4000000, .i32⟩
  | 109 => ⟨S4000000, .i32⟩
  | 110 => ⟨S4000000, .i32⟩
  | 111 => ⟨S4000000x1, .i32⟩
  | 112 => ⟨S4000000, .f32⟩
  | 113 => ⟨S_, .i32⟩
  | 114 => ⟨S4000000, .i32⟩
  | 115 => ⟨S4000000, .i1⟩
  | 116 => ⟨S_, .i32⟩
  | 117 => ⟨S4000000, .i32⟩
  | 118 => ⟨S4000000, .i32⟩
  | 119 => ⟨S4000000, .i32⟩
  | 120 => ⟨S4000000x1, .i32⟩
  | 121 => ⟨S4000000, .f32⟩
  | 122 => ⟨S4000000, .f32⟩
  | 123 => ⟨S2000000, .f32⟩
  | 124 => ⟨S2000000x1, .f32⟩
  | 125 => ⟨S_, .i32⟩
  | 126 => ⟨S4000000, .i32⟩
  | 127 => ⟨S4000000, .i1⟩
  | _ => ⟨S1000000, .f32⟩

abbrev hbmTy0_1 (i : Nat) : BufTy := match i % 128 with
  | 0 => ⟨S_, .i32⟩
  | 1 => ⟨S4000000, .i32⟩
  | 2 => ⟨S4000000, .i32⟩
  | 3 => ⟨S4000000, .i32⟩
  | 4 => ⟨S4000000x1, .i32⟩
  | 5 => ⟨S4000000x32, .f32⟩
  | 6 => ⟨S4000000x1, .f32⟩
  | 7 => ⟨S4000000x32, .f32⟩
  | 8 => ⟨S4000000x32, .f32⟩
  | 9 => ⟨S_, .f32⟩
  | 10 => ⟨S2000000x32, .f32⟩
  | 11 => ⟨S4000000x1, .i32⟩
  | 12 => ⟨S2000000x32, .f32⟩
  | 13 => ⟨S1x32, .f32⟩
  | 14 => ⟨S2000000x32, .f32⟩
  | 15 => ⟨S_, .i32⟩
  | 16 => ⟨S4000000, .i32⟩
  | 17 => ⟨S4000000, .i1⟩
  | 18 => ⟨S_, .i32⟩
  | 19 => ⟨S4000000, .i32⟩
  | 20 => ⟨S4000000, .i32⟩
  | 21 => ⟨S4000000, .i32⟩
  | 22 => ⟨S4000000x1, .i32⟩
  | 23 => ⟨S4000000x32, .f32⟩
  | 24 => ⟨S4000000x1, .f32⟩
  | 25 => ⟨S4000000x32, .f32⟩
  | 26 => ⟨S4000000x32, .f32⟩
  | 27 => ⟨S_, .f32⟩
  | 28 => ⟨S2000000x32, .f32⟩
  | 29 => ⟨S4000000x1, .i32⟩
  | 30 => ⟨S2000000x32, .f32⟩
  | 31 => ⟨S1x32, .f32⟩
  | 32 => ⟨S1x3, .f32⟩
  | 33 => ⟨S2000000x3, .f32⟩
  | 34 => ⟨S2000000x3, .f32⟩
  | 35 => ⟨S_, .f32⟩
  | 36 => ⟨S1000000, .f32⟩
  | 37 => ⟨S2000000x1, .f32⟩
  | 38 => ⟨S2000000, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S1000000, .f32⟩
  | 48 => ⟨S2000000x1, .f32⟩
  | 49 => ⟨S2000000, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S1000000, .f32⟩
  | 59 => ⟨S2000000x1, .f32⟩
  | 60 => ⟨S2000000, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S1000000, .f32⟩
  | 70 => ⟨S1000000, .f32⟩
  | 71 => ⟨S2000000x1, .f32⟩
  | 72 => ⟨S2000000, .f32⟩
  | 73 => ⟨S2000000x1, .f32⟩
  | 74 => ⟨S2000000, .f32⟩
  | 75 => ⟨S2000000x1, .f32⟩
  | 76 => ⟨S2000000, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S4000x3, .f32⟩
  | .local _ .vmem, ⟨5, _⟩ => ⟨S4000x3, .f32⟩
  | .local _ .vmem, ⟨6, _⟩ => ⟨S3x32, .f32⟩
  | .local _ .vmem, ⟨7, _⟩ => ⟨S4000x3, .f32⟩
  | .local _ .vmem, ⟨8, _⟩ => ⟨S4000x3, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x1, .f32⟩
  | .local _ .vmem, ⟨16, _⟩ => ⟨S4000x1, .f32⟩
  | .local _ .vmem, ⟨17, _⟩ => ⟨S1x32, .f32⟩
  | .local _ .vmem, ⟨18, _⟩ => ⟨S32x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | .local _ .vmem, ⟨25, _⟩ => ⟨S4000x1, .f32⟩
  | .local _ .vmem, ⟨26, _⟩ => ⟨S4000x1, .f32⟩
  | .local _ .vmem, ⟨27, _⟩ => ⟨S1x32, .f32⟩
  | .local _ .vmem, ⟨28, _⟩ => ⟨S32x3, .f32⟩
  | .local _ .vmem, ⟨29, _⟩ => ⟨S1x3, .f32⟩
  | .local _ .vmem, ⟨30, _⟩ => ⟨S4000x3, .f32⟩
  | .local _ .vmem, ⟨31, _⟩ => ⟨S4000x3, .f32⟩
  | .local _ .vmem, ⟨32, _⟩ => ⟨S4000x3, .f32⟩
  | .local _ .vmem, ⟨33, _⟩ => ⟨S4000x3, .f32⟩
  | .local _ .vmem, ⟨34, _⟩ => ⟨S4000x3, .f32⟩
  | .local _ .vmem, ⟨35, _⟩ => ⟨S4000x3, .f32⟩
  | .local _ .vmem, ⟨36, _⟩ => ⟨S131072, .f32⟩
  | .local _ .vmem, ⟨37, _⟩ => ⟨S131072, .f32⟩
  | .local _ .vmem, ⟨38, _⟩ => ⟨S131072, .f32⟩
  | .local _ .vmem, ⟨39, _⟩ => ⟨S131072, .f32⟩
  | .local _ .vmem, ⟨40, _⟩ => ⟨S131072, .f32⟩
  | .local _ .vmem, ⟨41, _⟩ => ⟨S131072, .f32⟩
  | .local _ .vmem, ⟨42, _⟩ => ⟨S131072, .f32⟩
  | .local _ .vmem, ⟨43, _⟩ => ⟨S131072, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_19 : Ref sig .tc := ⟨.hbm, 125, rfl⟩
abbrev main_v88 : Ref sig .tc := ⟨.hbm, 126, rfl⟩
abbrev main_v89 : Ref sig .tc := ⟨.hbm, 127, rfl⟩
abbrev main_c_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_22 : Ref sig .tc := ⟨.hbm, 143, rfl⟩
abbrev main_v103 : Ref sig .tc := ⟨.hbm, 144, rfl⟩
abbrev main_v104 : Ref sig .tc := ⟨.hbm, 145, rfl⟩
abbrev main_c_23 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_24 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118_0 : Ref sig .tc := ⟨.hbm, 161, rfl⟩
abbrev main_v118_1 : Ref sig .tc := ⟨.hbm, 162, rfl⟩
abbrev main_cst_25 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_26 : Ref sig .tc := ⟨.hbm, 167, rfl⟩
abbrev main_v122 : Ref sig .tc := ⟨.hbm, 168, rfl⟩
abbrev main_v123 : Ref sig .tc := ⟨.hbm, 169, rfl⟩
abbrev main_c_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_28 : Ref sig .tc := ⟨.hbm, 178, rfl⟩
abbrev main_v131 : Ref sig .tc := ⟨.hbm, 179, rfl⟩
abbrev main_v132 : Ref sig .tc := ⟨.hbm, 180, rfl⟩
abbrev main_c_29 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_30 : Ref sig .tc := ⟨.hbm, 189, rfl⟩
abbrev main_v140 : Ref sig .tc := ⟨.hbm, 190, rfl⟩
abbrev main_v141 : Ref sig .tc := ⟨.hbm, 191, rfl⟩
abbrev main_c_31 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x3 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![8], ![false]⟩

def cc3_transform_0 (i : grid3.Coords) : Fin 1 → Nat :=
  let arg0 : BitVec 32 := BitVec.ofNat 32 (i 0).val
  let c0_i32 : BitVec 32 := 0#32
  ![arg0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S131072 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S131072 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S131072 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S131072 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S4000x32_S4000x32_0_0 : ∀ a, (![0, 0] : Fin 2 → Nat) a + S4000x32.size a ≤ S4000x32.size a
  h_S4000x32 : 0 < S4000x32.numel
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x32_0_1 : S4000000x1.BroadcastsInDim S4000000x32 (![0, 1] : Fin 2 → Fin S4000000x32.rank)
  bcast_S_S2000000x32 : S_.BroadcastsInDim S2000000x32 (![] : Fin 0 → Fin S2000000x32.rank)
  shapeCasts_S32_S1x32 : S32.ShapeCasts S1x32
  shapeCasts_S4000x32_S4000x32 : S4000x32.ShapeCasts S4000x32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  shapeCasts_S3_S1x3 : S3.ShapeCasts S1x3
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  bcast_S_S1000000 : S_.BroadcastsInDim S1000000 (![] : Fin 0 → Fin S1000000.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  inb_S131072_S131072_0 : ∀ a, (![0] : Fin 1 → Nat) a + S131072.size a ≤ S131072.size a
  h_S131072 : 0 < S131072.numel
  shapeCasts_S131072_S131072 : S131072.ShapeCasts S131072
  gather_S1000000_S2000000x1_S2000000_n_0_n_n_0_1_1_wf : GatherDims.WF S1000000 S2000000x1 S2000000 [] [0] [] [0] [] 1 ![1]
  dot_S4000x3_S3x32_S4000x32_1_0_0_1_n_n_wf : DotDims.WF S4000x3 S3x32 S4000x32 [1] [0] [0] [1] [] []
  scatter_S2000000_S4000000x1_S4000000_n_0_0_1_wf : ScatterDims.WF S2000000 S4000000x1 S4000000 [] [0] [0] 1
  gather_S2000000_S4000000x1_S4000000_n_0_n_n_0_1_1_wf : GatherDims.WF S2000000 S4000000x1 S4000000 [] [0] [] [0] [] 1 ![1]
  gather_S2000000x32_S4000000x1_S4000000x32_1_0_n_n_0_1_132_wf : GatherDims.WF S2000000x32 S4000000x1 S4000000x32 [1] [0] [] [0] [] 1 ![1, 32]
  scatter_S2000000x32_S4000000x1_S4000000x32_1_0_0_1_wf : ScatterDims.WF S2000000x32 S4000000x1 S4000000x32 [1] [0] [0] 1
  dot_S4000x32_S32x32_S4000x32_1_0_0_1_n_n_wf : DotDims.WF S4000x32 S32x32 S4000x32 [1] [0] [0] [1] [] []
  dot_S4000x32_S32x3_S4000x3_1_0_0_1_n_n_wf : DotDims.WF S4000x32 S32x3 S4000x3 [1] [0] [0] [1] [] []
  scatter_S1000000_S2000000x1_S2000000_n_0_0_1_wf : ScatterDims.WF S1000000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S2000000x3.size a
  hwx0_0 : ∀ i : grid0.Coords, EltTy.bits .f32 = 32 ∨ (Rect.block (s := S2000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S2000000x3.size a
  hwx0_1 : ∀ i : grid0.Coords, EltTy.bits .f32 = 32 ∨ (Rect.block (s := S2000000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S2000000x3.size a
  hwx0_2 : ∀ i : grid0.Coords, EltTy.bits .f32 = 32 ∨ (Rect.block (s := S2000000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x3.size a ≤ S2000000x3.size a
  hwx0_4 : ∀ i : grid0.Coords, EltTy.bits .f32 = 32 ∨ (Rect.block (s := S2000000x3) S4000x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S2000000x32.size a
  hwx0_5 : ∀ i : grid0.Coords, EltTy.bits .f32 = 32 ∨ (Rect.block (s := S2000000x32) S4000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S2000000x32.size a
  hwx1_0 : ∀ i : grid1.Coords, EltTy.bits .f32 = 32 ∨ (Rect.block (s := S2000000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S2000000x32.size a
  hwx1_1 : ∀ i : grid1.Coords, EltTy.bits .f32 = 32 ∨ (Rect.block (s := S2000000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S2000000x1.size a
  hwx1_2 : ∀ i : grid1.Coords, EltTy.bits .f32 = 32 ∨ (Rect.block (s := S2000000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S2000000x32.size a
  hwx1_5 : ∀ i : grid1.Coords, EltTy.bits .f32 = 32 ∨ (Rect.block (s := S2000000x32) S4000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S2000000x32.size a
  hwx2_0 : ∀ i : grid2.Coords, EltTy.bits .f32 = 32 ∨ (Rect.block (s := S2000000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S2000000x32.size a
  hwx2_1 : ∀ i : grid2.Coords, EltTy.bits .f32 = 32 ∨ (Rect.block (s := S2000000x32) S4000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S2000000x1.size a
  hwx2_2 : ∀ i : grid2.Coords, EltTy.bits .f32 = 32 ∨ (Rect.block (s := S2000000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x3.size a ≤ S32x3.size a
  hwx2_4 : ∀ i : grid2.Coords, EltTy.bits .f32 = 32 ∨ (Rect.block (s := S32x3) S32x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3.size a ≤ S1x3.size a
  hwx2_5 : ∀ i : grid2.Coords, EltTy.bits .f32 = 32 ∨ (Rect.block (s := S1x3) S1x3.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x3.size a ≤ S2000000x3.size a
  hwx2_6 : ∀ i : grid2.Coords, EltTy.bits .f32 = 32 ∨ (Rect.block (s := S2000000x3) S4000x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x3.size a ≤ S2000000x3.size a
  hwx2_7 : ∀ i : grid2.Coords, EltTy.bits .f32 = 32 ∨ (Rect.block (s := S2000000x3) S4000x3.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x3.size a ≤ S2000000x3.size a
  hwx2_8 : ∀ i : grid2.Coords, EltTy.bits .f32 = 32 ∨ (Rect.block (s := S2000000x3) S4000x3.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S131072.size a < S1000000.size a
  hwx3_0 : ∀ i : grid3.Coords, EltTy.bits .f32 = 32 ∨ (Rect.unit (s := S1000000) (fun a => cc3_transform_0 i a * S131072.size a) (fun a => (Pipeline.Clip.of (cc3_transform_0 i a) (S131072.size a) (S1000000.size a)).extent (S131072.size a)) fun a => Pipeline.Clip.inb (Pipeline.Clip.ok_of (hstart3_0 i a))).WholeWords (EltTy.packing .f32)
  hwxs3_0 : ∀ i : grid3.Coords, EltTy.bits .f32 = 32 ∨ (Rect.unit (s := S131072) (fun _ => 0) (fun a => (Pipeline.Clip.of (cc3_transform_0 i a) (S131072.size a) (S1000000.size a)).extent (S131072.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S131072.size a < S1000000.size a
  hwx3_1 : ∀ i : grid3.Coords, EltTy.bits .f32 = 32 ∨ (Rect.unit (s := S1000000) (fun a => cc3_transform_1 i a * S131072.size a) (fun a => (Pipeline.Clip.of (cc3_transform_1 i a) (S131072.size a) (S1000000.size a)).extent (S131072.size a)) fun a => Pipeline.Clip.inb (Pipeline.Clip.ok_of (hstart3_1 i a))).WholeWords (EltTy.packing .f32)
  hwxs3_1 : ∀ i : grid3.Coords, EltTy.bits .f32 = 32 ∨ (Rect.unit (s := S131072) (fun _ => 0) (fun a => (Pipeline.Clip.of (cc3_transform_1 i a) (S131072.size a) (S1000000.size a)).extent (S131072.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S131072.size a < S1000000.size a
  hwx3_2 : ∀ i : grid3.Coords, EltTy.bits .f32 = 32 ∨ (Rect.unit (s := S1000000) (fun a => cc3_transform_2 i a * S131072.size a) (fun a => (Pipeline.Clip.of (cc3_transform_2 i a) (S131072.size a) (S1000000.size a)).extent (S131072.size a)) fun a => Pipeline.Clip.inb (Pipeline.Clip.ok_of (hstart3_2 i a))).WholeWords (EltTy.packing .f32)
  hwxs3_2 : ∀ i : grid3.Coords, EltTy.bits .f32 = 32 ∨ (Rect.unit (s := S131072) (fun _ => 0) (fun a => (Pipeline.Clip.of (cc3_transform_2 i a) (S131072.size a) (S1000000.size a)).extent (S131072.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S131072.size a < S1000000.size a
  hwx3_3 : ∀ i : grid3.Coords, EltTy.bits .f32 = 32 ∨ (Rect.unit (s := S1000000) (fun a => cc3_transform_3 i a * S131072.size a) (fun a => (Pipeline.Clip.of (cc3_transform_3 i a) (S131072.size a) (S1000000.size a)).extent (S131072.size a)) fun a => Pipeline.Clip.inb (Pipeline.Clip.ok_of (hstart3_3 i a))).WholeWords (EltTy.packing .f32)
  hwxs3_3 : ∀ i : grid3.Coords, EltTy.bits .f32 = 32 ∨ (Rect.unit (s := S131072) (fun _ => 0) (fun a => (Pipeline.Clip.of (cc3_transform_3 i a) (S131072.size a) (S1000000.size a)).extent (S131072.size a)) fun a => (Nat.zero_add _).trans_le (Pipeline.Clip.extent_le (Pipeline.Clip.ok_of (hstart3_3 i a)))).WholeWords (EltTy.packing .f32)

variable [Facts₀]

def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def dot_S4000x3_S3x32_S4000x32_1_0_0_1_n_n : DotDims S4000x3 S3x32 S4000x32 where
  lhsContracting := [1]
  rhsContracting := [0]
  lhsNonContracting := [0]
  rhsNonContracting := [1]
  lhsBatch := []
  rhsBatch := []
  wf := dot_S4000x3_S3x32_S4000x32_1_0_0_1_n_n_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def gather_S2000000x32_S4000000x1_S4000000x32_1_0_n_n_0_1_132 : GatherDims S2000000x32 S4000000x1 S4000000x32 where
  offsetDims := [1]
  collapsedSliceDims := [0]
  operandBatchingDims := []
  startIndicesBatchingDims := []
  startIndexMap := [0]
  indexVectorDim := 1
  sliceSizes := ![1, 32]
  wf := gather_S2000000x32_S4000000x1_S4000000x32_1_0_n_n_0_1_132_wf
def scatter_S2000000x32_S4000000x1_S4000000x32_1_0_0_1 : ScatterDims S2000000x32 S4000000x1 S4000000x32 where
  updateWindowDims := [1]
  insertedWindowDims := [0]
  scatterDimsToOperandDims := [0]
  indexVectorDim := 1
  wf := scatter_S2000000x32_S4000000x1_S4000000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x3_S4000x3_1_0_0_1_n_n : DotDims S4000x32 S32x3 S4000x3 where
  lhsContracting := [1]
  rhsContracting := [0]
  lhsNonContracting := [0]
  rhsNonContracting := [1]
  lhsBatch := []
  rhsBatch := []
  wf := dot_S4000x32_S32x3_S4000x3_1_0_0_1_n_n_wf
def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf

abbrev win0_0 : Pipeline.Window sig grid0 :=
  Pipeline.Window.ofSpec (Memref.whole main_v53) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54_0) S4000x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54_1) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v100) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54_1) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v101) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v102) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v115) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v116) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S32x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v117) S1x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S4000x3.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v118_0) S4000x3.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v118_1) S4000x3.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpecClip (Memref.whole main_arg0) S131072.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_arg7) S131072.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v146) S131072.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v147) S131072.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1000000 : Shape := ⟨1, ![1000000]⟩
abbrev S2000000 : Shape := ⟨1, ![2000000]⟩
abbrev S2x4000000 : Shape := ⟨2, ![2, 4000000]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩
abbrev S2000000x1 : Shape := ⟨2, ![2000000, 1]⟩
abbrev S2000000x3 : Shape := ⟨2, ![2000000, 3]⟩
abbrev S1x4000000 : Shape := ⟨2, ![1, 4000000]⟩
abbrev S4000000 : Shape := ⟨1, ![4000000]⟩
abbrev S2000000x32 : Shape := ⟨2, ![2000000, 32]⟩
abbrev S4000000x1 : Shape := ⟨2, ![4000000, 1]⟩
abbrev S4000000x32 : Shape := ⟨2, ![4000000, 32]⟩
abbrev S1x32 : Shape := ⟨2, ![1, 32]⟩
abbrev S1x3 : Shape := ⟨2, ![1, 3]⟩

abbrev nBuf : Space → Nat
  | .hbm => 270
  | .vmem => 0
  | .smem => 0
  | _ => 0

abbrev hbmTy0_0 (i : Nat) : BufTy := match i % 128 with
  | 0 => ⟨S1000000, .f32⟩
  | 1 => ⟨S2000000, .f32⟩
  | 2 => ⟨S2000000, .f32⟩
  | 3 => ⟨S2000000, .f32⟩
  | 4 => ⟨S2000000, .i32⟩
  | 5 => ⟨S2000000, .i32⟩
  | 6 => ⟨S2000000, .i32⟩
  | 7 => ⟨S1000000, .f32⟩
  | 8 => ⟨S2x4000000, .i32⟩
  | 9 => ⟨S3x32, .f32⟩
  | 10 => ⟨S32, .f32⟩
  | 11 => ⟨S32x32, .f32⟩
  | 12 => ⟨S32, .f32⟩
  | 13 => ⟨S32x3, .f32⟩
  | 14 => ⟨S3, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .f32⟩
  | 33 => ⟨S2000000, .f32⟩
  | 34 => ⟨S2000000, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000, .f32⟩
  | 53 => ⟨S2000000, .f32⟩
  | 54 => ⟨S2000000, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000, .f32⟩
  | 73 => ⟨S2000000, .f32⟩
  | 74 => ⟨S2000000, .f32⟩
  | 75 => ⟨S_, .f32⟩
  | 76 => ⟨S1000000, .f32⟩
  | 77 => ⟨S1000000, .i1⟩
  | 78 => ⟨S_, .f32⟩
  | 79 => ⟨S1000000, .f32⟩
  | 80 => ⟨S1000000, .f32⟩
  | 81 => ⟨S2000000x1, .f32⟩
  | 82 => ⟨S2000000x1, .f32⟩
  | 83 => ⟨S2000000x1, .f32⟩
  | 84 => ⟨S2000000x3, .f32⟩
  | 85 => ⟨S1x4000000, .i32⟩
  | 86 => ⟨S4000000, .i32⟩
  | 87 => ⟨S1x4000000, .i32⟩
  | 88 => ⟨S4000000, .i32⟩
  | 89 => ⟨S2000000x32, .f32⟩
  | 90 => ⟨S_, .f32⟩
  | 91 => ⟨S2000000, .f32⟩
  | 92 => ⟨S_, .i32⟩
  | 93 => ⟨S4000000, .i32⟩
  | 94 => ⟨S4000000, .i1⟩
  | 95 => ⟨S_, .i32⟩
  | 96 => ⟨S4000000, .i32⟩
  | 97 => ⟨S4000000, .i32⟩
  | 98 => ⟨S4000000, .i32⟩
  | 99 => ⟨S4000000x1, .i32⟩
  | 100 => ⟨S_, .f32⟩
  | 101 => ⟨S4000000, .f32⟩
  | 102 => ⟨S2000000, .f32⟩
  | 103 => ⟨S_, .f32⟩
  | 104 => ⟨S2000000, .f32⟩
  | 105 => ⟨S2000000, .f32⟩
  | 106 => ⟨S2000000, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S4000000x1, .i32⟩
  | 115 => ⟨S4000000, .f32⟩
  | 116 => ⟨S_, .i32⟩
  | 117 => ⟨S4000000, .i32⟩
  | 118 => ⟨S4000000, .i1⟩
  | 119 => ⟨S_, .i32⟩
  | 120 => ⟨S4000000, .i32⟩
  | 121 => ⟨S4000000, .i32⟩
  | 122 => ⟨S4000000, .i32⟩
  | 123 => ⟨S4000000x1, .i32⟩
  | 124 => ⟨S4000000, .f32⟩
  | 125 => ⟨S4000000, .f32⟩
  | 126 => ⟨S_, .i32⟩
  | 127 => ⟨S4000000, .i32⟩
  | _ => ⟨S1000000, .f32⟩

abbrev hbmTy0_1 (i : Nat) : BufTy := match i % 128 with
  | 0 => ⟨S4000000, .i1⟩
  | 1 => ⟨S_, .i32⟩
  | 2 => ⟨S4000000, .i32⟩
  | 3 => ⟨S4000000, .i32⟩
  | 4 => ⟨S4000000, .i32⟩
  | 5 => ⟨S4000000x1, .i32⟩
  | 6 => ⟨S4000000x32, .f32⟩
  | 7 => ⟨S4000000x1, .f32⟩
  | 8 => ⟨S4000000x32, .f32⟩
  | 9 => ⟨S4000000x32, .f32⟩
  | 10 => ⟨S_, .f32⟩
  | 11 => ⟨S2000000x32, .f32⟩
  | 12 => ⟨S4000000x1, .i32⟩
  | 13 => ⟨S2000000x32, .f32⟩
  | 14 => ⟨S2000000, .f32⟩
  | 15 => ⟨S2000000x1, .f32⟩
  | 16 => ⟨S2000000x32, .f32⟩
  | 17 => ⟨S2000000x32, .f32⟩
  | 18 => ⟨S2000000x32, .f32⟩
  | 19 => ⟨S1x32, .f32⟩
  | 20 => ⟨S2000000x32, .f32⟩
  | 21 => ⟨S2000000x32, .f32⟩
  | 22 => ⟨S_, .f32⟩
  | 23 => ⟨S2000000x32, .f32⟩
  | 24 => ⟨S2000000x32, .f32⟩
  | 25 => ⟨S1x4000000, .i32⟩
  | 26 => ⟨S4000000, .i32⟩
  | 27 => ⟨S1x4000000, .i32⟩
  | 28 => ⟨S4000000, .i32⟩
  | 29 => ⟨S2000000x32, .f32⟩
  | 30 => ⟨S_, .f32⟩
  | 31 => ⟨S2000000, .f32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i32⟩
  | 38 => ⟨S4000000, .i32⟩
  | 39 => ⟨S4000000x1, .i32⟩
  | 40 => ⟨S_, .f32⟩
  | 41 => ⟨S4000000, .f32⟩
  | 42 => ⟨S2000000, .f32⟩
  | 43 => ⟨S_, .f32⟩
  | 44 => ⟨S2000000, .f32⟩
  | 45 => ⟨S2000000, .f32⟩
  | 46 => ⟨S2000000, .f32⟩
  | 47 => ⟨S_, .i32⟩
  | 48 => ⟨S4000000, .i32⟩
  | 49 => ⟨S4000000, .i1⟩
  | 50 => ⟨S_, .i32⟩
  | 51 => ⟨S4000000, .i32⟩
  | 52 => ⟨S4000000, .i32⟩
  | 53 => ⟨S4000000, .i32⟩
  | 54 => ⟨S4000000x1, .i32⟩
  | 55 => ⟨S4000000, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S4000000x1, .i32⟩
  | 64 => ⟨S4000000, .f32⟩
  | 65 => ⟨S4000000, .f32⟩
  | 66 => ⟨S_, .i32⟩
  | 67 => ⟨S4000000, .i32⟩
  | 68 => ⟨S4000000, .i1⟩
  | 69 => ⟨S_, .i32⟩
  | 70 => ⟨S4000000, .i32⟩
  | 71 => ⟨S4000000, .i32⟩
  | 72 => ⟨S4000000, .i32⟩
  | 73 => ⟨S4000000x1, .i32⟩
  | 74 => ⟨S4000000x32, .f32⟩
  | 75 => ⟨S4000000x1, .f32⟩
  | 76 => ⟨S4000000x32, .f32⟩
  | 77 => ⟨S4000000x32, .f32⟩
  | 78 => ⟨S_, .f32⟩
  | 79 => ⟨S2000000x32, .f32⟩
  | 80 => ⟨S4000000x1, .i32⟩
  | 81 => ⟨S2000000x32, .f32⟩
  | 82 => ⟨S2000000, .f32⟩
  | 83 => ⟨S2000000x1, .f32⟩
  | 84 => ⟨S2000000x32, .f32⟩
  | 85 => ⟨S2000000x32, .f32⟩
  | 86 => ⟨S2000000x32, .f32⟩
  | 87 => ⟨S1x32, .f32⟩
  | 88 => ⟨S2000000x32, .f32⟩
  | 89 => ⟨S2000000x32, .f32⟩
  | 90 => ⟨S_, .f32⟩
  | 91 => ⟨S2000000x32, .f32⟩
  | 92 => ⟨S2000000x32, .f32⟩
  | 93 => ⟨S2000000x3, .f32⟩
  | 94 => ⟨S1x3, .f32⟩
  | 95 => ⟨S2000000x3, .f32⟩
  | 96 => ⟨S2000000x3, .f32⟩
  | 97 => ⟨S2000000x1, .f32⟩
  | 98 => ⟨S2000000, .f32⟩
  | 99 => ⟨S2000000, .f32⟩
  | 100 => ⟨S2000000x1, .f32⟩
  | 101 => ⟨S2000000, .f32⟩
  | 102 => ⟨S2000000, .f32⟩
  | 103 => ⟨S2000000x1, .f32⟩
  | 104 => ⟨S2000000, .f32⟩
  | 105 => ⟨S2000000, .f32⟩
  | 106 => ⟨S_, .f32⟩
  | 107 => ⟨S1000000, .f32⟩
  | 108 => ⟨S2000000x1, .f32⟩
  | 109 => ⟨S2000000, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S1000000, .f32⟩
  | 119 => ⟨S2000000x1, .f32⟩
  | 120 => ⟨S2000000, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S1000000, .f32⟩

abbrev hbmTy0_2 (i : Nat) : BufTy := match i % 128 with
  | 0 => ⟨S2000000x1, .i32⟩
  | 1 => ⟨S1000000, .f32⟩
  | 2 => ⟨S2000000x1, .f32⟩
  | 3 => ⟨S2000000, .f32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S1000000, .f32⟩
  | 13 => ⟨S1000000, .f32⟩
  | _ => ⟨S1000000, .f32⟩

abbrev hbmTy (i : Nat) : BufTy := match i / 128 with
  | 0 => hbmTy0_0 i
  | 1 => hbmTy0_1 i
  | 2 => hbmTy0_2 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_19 : Ref sig .tc := ⟨.hbm, 116, rfl⟩
abbrev main_v80 : Ref sig .tc := ⟨.hbm, 117, rfl⟩
abbrev main_v81 : Ref sig .tc := ⟨.hbm, 118, rfl⟩
abbrev main_c_20 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_21 : Ref sig .tc := ⟨.hbm, 126, rfl⟩
abbrev main_v88 : Ref sig .tc := ⟨.hbm, 127, rfl⟩
abbrev main_v89 : Ref sig .tc := ⟨.hbm, 128, rfl⟩
abbrev main_c_22 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call1_cst : Ref sig .tc := ⟨.hbm, 150, rfl⟩
abbrev main_call1_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_24 : Ref sig .tc := ⟨.hbm, 158, rfl⟩
abbrev main_v115 : Ref sig .tc := ⟨.hbm, 159, rfl⟩
abbrev main_c_25 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_27 : Ref sig .tc := ⟨.hbm, 168, rfl⟩
abbrev main_v122 : Ref sig .tc := ⟨.hbm, 169, rfl⟩
abbrev main_v123 : Ref sig .tc := ⟨.hbm, 170, rfl⟩
abbrev main_cst_28 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_29 : Ref sig .tc := ⟨.hbm, 175, rfl⟩
abbrev main_v127 : Ref sig .tc := ⟨.hbm, 176, rfl⟩
abbrev main_v128 : Ref sig .tc := ⟨.hbm, 177, rfl⟩
abbrev main_c_30 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_31 : Ref sig .tc := ⟨.hbm, 184, rfl⟩
abbrev main_v134 : Ref sig .tc := ⟨.hbm, 185, rfl⟩
abbrev main_v135 : Ref sig .tc := ⟨.hbm, 186, rfl⟩
abbrev main_c_32 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_33 : Ref sig .tc := ⟨.hbm, 194, rfl⟩
abbrev main_v142 : Ref sig .tc := ⟨.hbm, 195, rfl⟩
abbrev main_v143 : Ref sig .tc := ⟨.hbm, 196, rfl⟩
abbrev main_c_34 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_35 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_call2_cst : Ref sig .tc := ⟨.hbm, 218, rfl⟩
abbrev main_call2_v0 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_36 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_c_37 : Ref sig .tc := ⟨.hbm, 238, rfl⟩
abbrev main_v180 : Ref sig .tc := ⟨.hbm, 239, rfl⟩
abbrev main_v181 : Ref sig .tc := ⟨.hbm, 240, rfl⟩
abbrev main_c_38 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_c_39 : Ref sig .tc := ⟨.hbm, 249, rfl⟩
abbrev main_v189 : Ref sig .tc := ⟨.hbm, 250, rfl⟩
abbrev main_v190 : Ref sig .tc := ⟨.hbm, 251, rfl⟩
abbrev main_c_40 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_c_41 : Ref sig .tc := ⟨.hbm, 260, rfl⟩
abbrev main_v198 : Ref sig .tc := ⟨.hbm, 261, rfl⟩
abbrev main_v199 : Ref sig .tc := ⟨.hbm, 262, rfl⟩
abbrev main_c_42 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1000000 : S_.BroadcastsInDim S1000000 (![] : Fin 0 → Fin S1000000.rank)
  concatenates_S2000000x1_S2000000x1_S2000000x1_S2000000x3_d1 : Shape.Concatenates [S2000000x1, S2000000x1, S2000000x1] S2000000x3 1
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x32_0_1 : S4000000x1.BroadcastsInDim S4000000x32 (![0, 1] : Fin 2 → Fin S4000000x32.rank)
  bcast_S_S2000000x32 : S_.BroadcastsInDim S2000000x32 (![] : Fin 0 → Fin S2000000x32.rank)
  bcast_S2000000x1_S2000000x32_0_1 : S2000000x1.BroadcastsInDim S2000000x32 (![0, 1] : Fin 2 → Fin S2000000x32.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  gather_S1000000_S2000000x1_S2000000_n_0_n_n_0_1_1_wf : GatherDims.WF S1000000 S2000000x1 S2000000 [] [0] [] [0] [] 1 ![1]
  dot_S2000000x3_S3x32_S2000000x32_1_0_0_1_n_n_wf : DotDims.WF S2000000x3 S3x32 S2000000x32 [1] [0] [0] [1] [] []
  scatter_S2000000_S4000000x1_S4000000_n_0_0_1_wf : ScatterDims.WF S2000000 S4000000x1 S4000000 [] [0] [0] 1
  gather_S2000000_S4000000x1_S4000000_n_0_n_n_0_1_1_wf : GatherDims.WF S2000000 S4000000x1 S4000000 [] [0] [] [0] [] 1 ![1]
  gather_S2000000x32_S4000000x1_S4000000x32_1_0_n_n_0_1_132_wf : GatherDims.WF S2000000x32 S4000000x1 S4000000x32 [1] [0] [] [0] [] 1 ![1, 32]
  scatter_S2000000x32_S4000000x1_S4000000x32_1_0_0_1_wf : ScatterDims.WF S2000000x32 S4000000x1 S4000000x32 [1] [0] [0] 1
  dot_S2000000x32_S32x32_S2000000x32_1_0_0_1_n_n_wf : DotDims.WF S2000000x32 S32x32 S2000000x32 [1] [0] [0] [1] [] []
  dot_S2000000x32_S32x3_S2000000x3_1_0_0_1_n_n_wf : DotDims.WF S2000000x32 S32x3 S2000000x3 [1] [0] [0] [1] [] []
  scatter_S1000000_S2000000x1_S2000000_n_0_0_1_wf : ScatterDims.WF S1000000 S2000000x1 S2000000 [] [0] [0] 1

variable [Facts₀]

def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def dot_S2000000x3_S3x32_S2000000x32_1_0_0_1_n_n : DotDims S2000000x3 S3x32 S2000000x32 where
  lhsContracting := [1]
  rhsContracting := [0]
  lhsNonContracting := [0]
  rhsNonContracting := [1]
  lhsBatch := []
  rhsBatch := []
  wf := dot_S2000000x3_S3x32_S2000000x32_1_0_0_1_n_n_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf
def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def gather_S2000000x32_S4000000x1_S4000000x32_1_0_n_n_0_1_132 : GatherDims S2000000x32 S4000000x1 S4000000x32 where
  offsetDims := [1]
  collapsedSliceDims := [0]
  operandBatchingDims := []
  startIndicesBatchingDims := []
  startIndexMap := [0]
  indexVectorDim := 1
  sliceSizes := ![1, 32]
  wf := gather_S2000000x32_S4000000x1_S4000000x32_1_0_n_n_0_1_132_wf
def scatter_S2000000x32_S4000000x1_S4000000x32_1_0_0_1 : ScatterDims S2000000x32 S4000000x1 S4000000x32 where
  updateWindowDims := [1]
  insertedWindowDims := [0]
  scatterDimsToOperandDims := [0]
  indexVectorDim := 1
  wf := scatter_S2000000x32_S4000000x1_S4000000x32_1_0_0_1_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf
def dot_S2000000x32_S32x3_S2000000x3_1_0_0_1_n_n : DotDims S2000000x32 S32x3 S2000000x3 where
  lhsContracting := [1]
  rhsContracting := [0]
  lhsNonContracting := [0]
  rhsNonContracting := [1]
  lhsBatch := []
  rhsBatch := []
  wf := dot_S2000000x32_S32x3_S2000000x3_1_0_0_1_n_n_wf
def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf

class Facts : Prop extends Facts₀ where

variable [Facts]
-- ==== Proof.Bits.Region0.lean ====
import proofs.«422434_j9131100471786_3_alg».proof.Proof.Gen.Kernel.Launch
import proofs.«422434_j9131100471786_3_alg».proof.Proof.Gen.Kernel.Skeleton
import proofs.«422434_j9131100471786_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S4000x3 := Rect.unit (s := S4000x3) ![0, 0] S4000x3.size inb_S4000x3_S4000x3_0_0
abbrev r0_w : Rect S3x32 := Rect.unit (s := S3x32) ![0, 0] S3x32.size inb_S3x32_S3x32_0_0
abbrev r0_o : Rect S4000x32 := Rect.unit (s := S4000x32) ![0, 0] S4000x32.size inb_S4000x32_S4000x32_0_0

def out0_4 (x0 x1 x2 : Vec F S4000x3 .f32) : Vec F S4000x3 .f32 :=
  View.canon [⟨r0_a, k0_pay1 (View.ld x0 r0_a) (View.ld x1 r0_a) (View.ld x2 r0_a)⟩]

def out0_5 (x0 x1 x2 : Vec F S4000x3 .f32) (x3 : Vec F S3x32 .f32) : Vec F S4000x32 .f32 :=
  View.canon [⟨r0_o, k0_pay2 (View.ld x0 r0_a) (View.ld x1 r0_a) (View.ld x2 r0_a) (View.ld x3 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

-- What the body is entered with: each input's buffer at the current point's block.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

-- The body run once at a generic point: the inputs are only read, and each result is one store over its whole buffer, so it reads back as the stored payload.
theorem body_obligation0 (c : Dev nD) : BodyObligation (dat0 (F := F) V c) (defs₀ (F := F)) Variants.none () Set.univ := fun t => by
  rw [bigSep_W0, bigSep_W0]
  simp only [before0_0, before0_1, before0_2, before0_3]
  dsimp only [dat0]
  show _ ⊢ wp _ _ _ (bodyAt0 t) _
  unfold bodyAt0
  generalize iblk0 V c 0 t = x0, iblk0 V c 1 t = x1, iblk0 V c 2 t = x2, iblk0 V c 3 t = x3
  simp only [cc0__fused_divmm1_kernel_eq_skeleton]; unfold cc0__fused_divmm1_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  subst hf0 hf1 hf2 hf3
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]
  · iexists _; iframe H4; ipureintro
    exact View.read_writes_eq_canon _ _ _ (View.cover_of_tiled _ S4000x3.size (by rfl))
  iexists _; iframe H5; ipureintro
  exact View.read_writes_eq_canon _ _ _ (View.cover_of_tiled _ S4000x32.size (by rfl))

end Cert.Kernel.Hand

end
-- ==== Proof.Bits.Region1.lean ====
import proofs.«422434_j9131100471786_3_alg».proof.Proof.Gen.Kernel.Launch
import proofs.«422434_j9131100471786_3_alg».proof.Proof.Gen.Kernel.Skeleton
import proofs.«422434_j9131100471786_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S4000x32 := Rect.unit (s := S4000x32) ![0, 0] S4000x32.size inb_S4000x32_S4000x32_0_0
abbrev r1_d : Rect S4000x1 := Rect.unit (s := S4000x1) ![0, 0] S4000x1.size inb_S4000x1_S4000x1_0_0
abbrev r1_b : Rect S1x32 := Rect.unit (s := S1x32) ![0, 0] S1x32.size inb_S1x32_S1x32_0_0
abbrev r1_w : Rect S32x32 := Rect.unit (s := S32x32) ![0, 0] S32x32.size inb_S32x32_S32x32_0_0

def out1_5 (x0 x1 : Vec F S4000x32 .f32) (x2 : Vec F S4000x1 .f32) (x3 : Vec F S1x32 .f32) (x4 : Vec F S32x32 .f32) : Vec F S4000x32 .f32 :=
  View.canon [⟨r1_a, k1_pay1 (View.ld x0 r1_a) (View.ld x1 r1_a) (View.ld x2 r1_d) (View.ld x3 r1_b) (View.ld x4 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body is entered with: each input's buffer at the current point's block.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

-- The body run once at a generic point: the inputs are only read, and each result is one store over its whole buffer, so it reads back as the stored payload.
theorem body_obligation1 (c : Dev nD) : BodyObligation (dat1 (F := F) V c) (defs₀ (F := F)) Variants.none () Set.univ := fun t => by
  rw [bigSep_W1, bigSep_W1]
  simp only [before1_0, before1_1, before1_2, before1_3, before1_4]
  dsimp only [dat1]
  show _ ⊢ wp _ _ _ (bodyAt1 t) _
  unfold bodyAt1
  generalize iblk1 V c 0 t = x0, iblk1 V c 1 t = x1, iblk1 V c 2 t = x2, iblk1 V c 3 t = x3, iblk1 V c 4 t = x4
  simp only [cc1__fused_relu_mm2_kernel_eq_skeleton]; unfold cc1__fused_relu_mm2_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S4000x32.size (by rfl))

end Cert.Kernel.Hand

end
-- ==== Proof.Bits.Region2.lean ====
import proofs.«422434_j9131100471786_3_alg».proof.Proof.Gen.Kernel.Launch
import proofs.«422434_j9131100471786_3_alg».proof.Proof.Gen.Kernel.Skeleton
import proofs.«422434_j9131100471786_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S4000x32 := Rect.unit (s := S4000x32) ![0, 0] S4000x32.size inb_S4000x32_S4000x32_0_0
abbrev r2_d : Rect S4000x1 := Rect.unit (s := S4000x1) ![0, 0] S4000x1.size inb_S4000x1_S4000x1_0_0
abbrev r2_b : Rect S1x32 := Rect.unit (s := S1x32) ![0, 0] S1x32.size inb_S1x32_S1x32_0_0
abbrev r2_w : Rect S32x3 := Rect.unit (s := S32x3) ![0, 0] S32x3.size inb_S32x3_S32x3_0_0
abbrev r2_c : Rect S1x3 := Rect.unit (s := S1x3) ![0, 0] S1x3.size inb_S1x3_S1x3_0_0
abbrev r2_t : Rect S4000x3 := Rect.unit (s := S4000x3) ![0, 0] S4000x3.size inb_S4000x3_S4000x3_0_0

def out2_7 (x0 x1 : Vec F S4000x32 .f32) (x2 : Vec F S4000x1 .f32) (x3 : Vec F S1x32 .f32) (x4 : Vec F S32x3 .f32) (x5 : Vec F S1x3 .f32) : Vec F S4000x3 .f32 :=
  View.canon [⟨r2_t, k2_pay1 (View.ld x0 r2_a) (View.ld x1 r2_a) (View.ld x2 r2_d) (View.ld x3 r2_b) (View.ld x4 r2_w) (View.ld x5 r2_c)⟩]

def out2_8 (x0 x1 : Vec F S4000x32 .f32) (x2 : Vec F S4000x1 .f32) (x3 : Vec F S1x32 .f32) (x4 : Vec F S32x3 .f32) (x5 : Vec F S1x3 .f32) (x6 : Vec F S4000x3 .f32) : Vec F S4000x3 .f32 :=
  View.canon [⟨r2_t, k2_pay2 (View.ld x0 r2_a) (View.ld x1 r2_a) (View.ld x2 r2_d) (View.ld x3 r2_b) (View.ld x4 r2_w) (View.ld x5 r2_c) (View.ld x6 r2_t)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) := by dsimp only [dat2]

-- What the body is entered with: each input's buffer at the current point's block.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

-- The body run once at a generic point: the inputs are only read, and each result is one store over its whole buffer, so it reads back as the stored payload.
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6]
  dsimp only [dat2]
  show _ ⊢ wp _ _ _ (bodyAt2 t) _
  unfold bodyAt2
  generalize iblk2 V c 0 t = x0, iblk2 V c 1 t = x1, iblk2 V c 2 t = x2, iblk2 V c 3 t = x3, iblk2 V c 4 t = x4, iblk2 V c 5 t = x5, iblk2 V c 6 t = x6
  simp only [cc2__fused_relu_head_kernel_eq_skeleton]; unfold cc2__fused_relu_head_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩⟩
  subst hf0 hf1 hf2 hf3 hf4 hf5 hf6
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]
  · iexists _; iframe H7; ipureintro
    exact View.read_writes_eq_canon _ _ _ (View.cover_of_tiled _ S4000x3.size (by rfl))
  iexists _; iframe H8; ipureintro
  exact View.read_writes_eq_canon _ _ _ (View.cover_of_tiled _ S4000x3.size (by rfl))

end Cert.Kernel.Hand

end
-- ==== Proof.Bits.Region3.lean ====
import proofs.«422434_j9131100471786_3_alg».proof.Proof.Gen.Kernel.Launch
import proofs.«422434_j9131100471786_3_alg».proof.Proof.Gen.Kernel.Skeleton
import proofs.«422434_j9131100471786_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def pay3 (a b u : F .f32) : F .f32 :=
  FloatOps.addf (Scalar.select (FloatOps.cmpf .ogt b (Scalar.ofBits .f32 0x00000000#32)) (Scalar.ofBits .f32 0x00000000#32) a) u

-- Every operation of the stored vector acts index by index.
theorem k3_pay1_apply (v0 v1 v2 : Vec F S131072 .f32) (j : S131072.Idx) :
    k3_pay1 v0 v1 v2 j = pay3 (v0 j) (v1 j) (v2 j) := by
  have h2 : shapeCast S131072 v2 shapeCasts_S131072_S131072 j = v2 j := congrArg v2 (Shape.reshapeEquiv_self _ j)
  unfold k3_pay1 pay3
  show FloatOps.addf _ (shapeCast S131072 v2 shapeCasts_S131072_S131072 j) = _
  rw [h2]; rfl

abbrev r3_a : Rect S131072 := Rect.unit (s := S131072) ![0] S131072.size inb_S131072_S131072_0

theorem r3_a_idx (j : S131072.Idx) : r3_a.idx j = j := by
  funext a; apply Fin.ext
  have ha : a = 0 := Subsingleton.elim _ _
  subst ha
  show 0 + 1 * (j 0 : Nat) = j 0
  omega

def out3_3 (x0 x1 x2 : Vec F S131072 .f32) : Vec F S131072 .f32 :=
  View.canon [⟨r3_a, k3_pay1 (View.ld x0 r3_a) (View.ld x1 r3_a) (View.ld x2 r3_a)⟩]

theorem out3_3_apply (x0 x1 x2 : Vec F S131072 .f32) (j : S131072.Idx) :
    out3_3 x0 x1 x2 j = pay3 (x0 j) (x1 j) (x2 j) := by
  have hj : r3_a.emb j = j := r3_a_idx j
  unfold out3_3
  conv_lhs => rw [← hj]
  rw [View.canon_cons_emb, k3_pay1_apply]
  show pay3 (x0 (r3_a.idx j)) (x1 (r3_a.idx j)) (x2 (r3_a.idx j)) = _
  rw [r3_a_idx]

-- The stored vector at an index reads the inputs at that index only, so filling it out with the payload of the inputs' words inside the array changes nothing.
theorem out3_3_fill (i : grid3.Coords) (X0 X1 X2 : S131072.Idx → F .f32) (g : ((cfg3.win 3).xblock i).Idx → F .f32)
    (hg : ∀ j, g j = pay3 ((cfg3.win 0).cut i X0 j) ((cfg3.win 1).cut i X1 j) ((cfg3.win 2).cut i X2 j)) :
    (cfg3.win 3).fill i (out3_3 X0 X1 X2) g = out3_3 X0 X1 X2 :=
  (congrArg ((cfg3.win 3).fill i _) (funext fun j => (out3_3_apply ..).trans (hg j).symm)).symm.trans ((cfg3.win 3).fill_cut i _)

def oblk3 (c : Dev nD) (t : Fin cfg3.N) : ((cfg3.win 3).xblock (cfg3.grid.coords t)).Idx → Elt F (cfg3.win 3).elt :=
  fun j => pay3 (iblk3 V c 0 t j) (iblk3 V c 1 t j) (iblk3 V c 2 t j)

def dat3 (c : Dev nD) : Dat τ (Elt F) Unit ℕ (UR sig nD τ) ℕ cfg3 c where
  A w := V c (Pipeline.arrRef spec3 w)
  after w t := match w with
    | ⟨0, _⟩ => (cfg3.win 0).fill (cfg3.grid.coords t) (fun _ => Scalar.ofBits .f32 0x00000000#32) (iblk3 V c 0 t)
    | ⟨1, _⟩ => (cfg3.win 1).fill (cfg3.grid.coords t) (fun _ => Scalar.ofBits .f32 0x00000000#32) (iblk3 V c 1 t)
    | ⟨2, _⟩ => (cfg3.win 2).fill (cfg3.grid.coords t) (fun _ => Scalar.ofBits .f32 0x00000000#32) (iblk3 V c 2 t)
    | ⟨3, _⟩ => (cfg3.win 3).fill (cfg3.grid.coords t) (fun _ => Scalar.ofBits .f32 0x00000000#32) (oblk3 V c t)
  Φ _ := Pipeline.ΦA spec3 c
  q _ := fullShare
  owed _ := 0

theorem A_eq3 (c : Dev nD) (w : Fin cfg3.W) : (dat3 V c).A w = V c (Pipeline.arrRef spec3 w) := rfl

-- Cut to the array, what the body leaves in the result's buffer is the word-by-word payload of the input blocks.
theorem flushed3_3 (c : Dev nD) (t : Fin cfg3.N) :
    (dat3 V c).flushed 3 t = oblk3 V c t := (cfg3.win 3).cut_fill _ _ _

-- What the body is entered with: each input's buffer at the current point's block inside the array, anything past it.
theorem before3_0 (c : Dev nD) (t : Fin cfg3.N) (d) :
    (dat3 V c).before 0 t d = (cfg3.win 0).fill (cfg3.grid.coords t) d (iblk3 V c 0 t) := (dat3 V c).before_fetched 0 t (fetch3_0 t) d
theorem before3_1 (c : Dev nD) (t : Fin cfg3.N) (d) :
    (dat3 V c).before 1 t d = (cfg3.win 1).fill (cfg3.grid.coords t) d (iblk3 V c 1 t) := (dat3 V c).before_fetched 1 t (fetch3_1 t) d
theorem before3_2 (c : Dev nD) (t : Fin cfg3.N) (d) :
    (dat3 V c).before 2 t d = (cfg3.win 2).fill (cfg3.grid.coords t) d (iblk3 V c 2 t) := (dat3 V c).before_fetched 2 t (fetch3_2 t) d

-- The body run once at a generic point: the inputs hold their blocks inside the array and anything past it, and are only read; the result is one store over its whole buffer, inside the array the word-by-word payload of the blocks.
theorem body_obligation3 (c : Dev nD) : Pipeline.BodyObligationLoose (dat3 (F := F) V c) (defs₀ (F := F)) Variants.none () Set.univ := fun t => by
  rw [bigSep_W3, bigSep_W3]
  simp only [before3_0, before3_1, before3_2]
  dsimp only [dat3]
  simp only [Window.cut_fill]
  show _ ⊢ wp _ _ _ (bodyAt3 t) _
  unfold bodyAt3
  simp only [cc3__edge_finalize_kernel_eq_skeleton]; unfold cc3__edge_finalize_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  isplitl [HΦ]; · iexact HΦ
  isplitl [Ho]; · iexact Ho
  isplitl [H0]; · iexists d0, f0; iframe H0; ipureintro; exact hf0
  isplitl [H1]; · iexists d1, f1; iframe H1; ipureintro; exact hf1
  isplitl [H2]; · iexists d2, f2; iframe H2; ipureintro; exact hf2
  iexists _, _; iframe H3; ipureintro
  refine (View.read_writes_eq_canon _ _ _ (View.cover_of_tiled _ S131072.size (by rfl))).trans (out3_3_fill _ _ _ _ _ fun j => ?_).symm
  rw [hf0, hf1, hf2]
  exact (congr (congr (congrArg pay3 ((cfg3.win 0).fill_xinj _ d0 _ j)) ((cfg3.win 1).fill_xinj _ d1 _ j)) ((cfg3.win 2).fill_xinj _ d2 _ j)).symm

def res3 (c : Dev nD) : Buf (Elt F) ((c : Thread nD τ).loc (Pipeline.arrRef spec3 3)) :=
  fun k => pay3 (V c (Pipeline.arrRef spec3 0) k) (V c (Pipeline.arrRef spec3 1) k) (V c (Pipeline.arrRef spec3 2) k)

-- A block of a word-by-word function of arrays is that function of their blocks: the four windows read one rectangle.
theorem oblk3_eq_read (c : Dev nD) (t : Fin cfg3.N) :
    oblk3 V c t = ((cfg3.win 3).blk t).view.read (Elt F) (res3 V c) := by
  funext j; rfl

end Cert.Kernel.Hand

end
-- ==== Proof.Bits.Run.lean ====
import proofs.«422434_j9131100471786_3_alg».proof.Proof.Gen.Kernel.Launch
import proofs.«422434_j9131100471786_3_alg».proof.Proof.Gen.Kernel.Skeleton
import proofs.«422434_j9131100471786_3_alg».proof.Proof.Gen.Kernel.Points
import proofs.«422434_j9131100471786_3_alg».proof.Proof.Bits.Region0
import proofs.«422434_j9131100471786_3_alg».proof.Proof.Bits.Region1
import proofs.«422434_j9131100471786_3_alg».proof.Proof.Bits.Region2
import proofs.«422434_j9131100471786_3_alg».proof.Proof.Bits.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
abbrev W9 : Dev nD → Valuation τ sig (Elt F) := fun c => StableHlo.after hostOps4 (W8 m ρ c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- A stretch of host operations takes every unscoped buffer from W to the stretch's fold of W.
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps_fresh : [hostOps0, hostOps1, hostOps2, hostOps3, (hostOps4 : List (HloOp τ sig (Elt F)))].Forall (·.Forall fun op => op.fresh = ∅) := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

-- The contents region p leaves from V: its arrays as its proof data fold them, every other buffer as in V.
abbrev exitVal (p : Fin 4) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in
-- Region p between two boundaries: it takes every unscoped buffer from V to exitVal p V.
def regionSeg (p : Fin 4) (ln : Pipeline.LaunchFacts (nD := nD) (τ := τ) cfgs p) (V : Dev nD → Valuation τ sig (Elt F))
    (hb : ∀ c, Pipeline.BodyObligationLoose (pdats m ρ p c) defs₀ 𝒱₀ () Set.univ)
    (hq : ∀ c w, (pdats m ρ p c).q w = fullShare)
    (hA : ∀ c w, (pdats m ρ p c).A w = V c (Proc.devRef .tc (Pipeline.arrRef (cfgs p).spec w)))
    (hΦ : ∀ c t, (pdats m ρ p c).Φ t = Pipeline.ΦA (cfgs p).spec c)
    (ho : ∀ c t, (pdats m ρ p c).owed t = 0) (hr : ∀ c, (pdats m ρ p c).recorded 0 = Set.univ) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (exitVal m ρ p V c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c (Proc.devRef .tc b)
  hentry c := by
    rw [Pipeline.ownSems0_none]
    have hsplit := Pipeline.arrays_of_unscopedBufs (p := p) (pcfgs (F := F)) adm (pdats m ρ) ln.win ln.arr_whole c
      ((pdats m ρ p c).share_full (hq c)) (fun b => V c (Proc.devRef .tc b)) (hA c)
    rw [Pipeline.unscopedBufs_held] at hsplit
    iintro ⟨⟨Hub, Hp, %W, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho c 0, hr c]
    iexists W; isplitr; · ipureintro; exact fun _ _ => Or.inl trivial
    iexact HO
  hin c := by
    rw [hΦ c 0]; unfold Pipeline.ΦA
    iintro ⟨Hp, -, Hr⟩; iframe
  hout c := by
    rw [Pipeline.ownSems0_none, hΦ c (Fin.last _)]; unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (fun b => V c (Proc.devRef .tc b)) (fun b => exitVal m ρ p V c (Proc.devRef .tc b)) ((pdats m ρ p c).arrAt · (cfgs p).N)
      (fun w => (Pipeline.withArrays_arr (cfgs p).spec ln.win.arr_inj c (V c) (fun w => (pdats m ρ p c).arrAt w (cfgs p).N) w).symm)
      (fun b hb => Pipeline.withArrays_of_ne _ c _ _ b fun w e => hb (Finset.mem_image.mpr ⟨w, Finset.mem_univ _, e⟩))
    rw [Pipeline.unscopedBufs_held] at hjoin
    unfold Pipeline.Dat.owesAt Pipeline.owesWithin; rw [ho c (Fin.last _)]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub hostOps_fresh.1 (W0 m ρ)),
    .region (regionSeg m ρ 0 launch0 (W1 m ρ) (fun c => (body_obligation0 (V1 m ρ) c).loose) (fun _ _ => rfl) (fun _ _ => rfl) (fun _ _ => rfl) (fun _ _ => rfl) fun _ => rfl),
    .host (hseg hostOps1 hostOps1_sub hostOps_fresh.2.1 (W2 m ρ)),
    .region (regionSeg m ρ 1 launch1 (W3 m ρ) (fun c => (body_obligation1 (V3 m ρ) c).loose) (fun _ _ => rfl) (fun _ _ => rfl) (fun _ _ => rfl) (fun _ _ => rfl) fun _ => rfl),
    .host (hseg hostOps2 hostOps2_sub hostOps_fresh.2.2.1 (W4 m ρ)),
    .region (regionSeg m ρ 2 launch2 (W5 m ρ) (fun c => (body_obligation2 (V5 m ρ) c).loose) (fun _ _ => rfl) (fun _ _ => rfl) (fun _ _ => rfl) (fun _ _ => rfl) fun _ => rfl),
    .host (hseg hostOps3 hostOps3_sub hostOps_fresh.2.2.2.1 (W6 m ρ)),
    .region (regionSeg m ρ 3 launch3 (W7 m ρ) (body_obligation3 (V7 m ρ)) (fun _ _ => rfl) (fun _ _ => rfl) (fun _ _ => rfl) (fun _ _ => rfl) fun _ => rfl),
    .host (hseg hostOps4 hostOps4_sub hostOps_fresh.2.2.2.2 (W8 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

abbrev hostOps0_W : List (Ref sig .tc) :=
  [ main_c, main_v0, main_v1, main_c_0, main_v2, main_v3, main_v4, main_v5, main_v6, main_c_1,
    main_v7, main_v8, main_c_2, main_v9, main_v10, main_v11, main_v12, main_v13, main_c_3, main_v14,
    main_v15, main_c_4, main_v16, main_v17, main_v18, main_v19, main_v20, main_v21, main_v22, main_v23,
    main_v24, main_c_5, main_v25, main_v26, main_c_6, main_v27, main_v28, main_v29, main_v30, main_v31,
    main_c_7, main_v32, main_v33, main_c_8, main_v34, main_v35, main_v36, main_v37, main_v38, main_c_9,
    main_v39, main_v40, main_c_10, main_v41, main_v42, main_v43, main_v44, main_v45, main_v46, main_v47,
    main_v48, main_v49, main_v50, main_v51, main_v52, main_v53 ]
abbrev hostOps1_W : List (Ref sig .tc) :=
  [ main_v55, main_v56, main_v57, main_v58, main_cst, main_v59, main_c_11, main_v60, main_v61, main_c_12,
    main_v62, main_v63, main_v64, main_v65, main_cst_13, main_v66, main_v67, main_cst_14, main_v68, main_v69,
    main_v70, main_c_15, main_v71, main_v72, main_c_16, main_v73, main_v74, main_v75, main_v76, main_v77,
    main_c_17, main_v78, main_v79, main_c_18, main_v80, main_v81, main_v82, main_v83, main_v84, main_v85,
    main_v86, main_v87, main_c_19, main_v88, main_v89, main_c_20, main_v90, main_v91, main_v92, main_v93,
    main_v94, main_v95, main_v96, main_v97, main_cst_21, main_v98, main_v99, main_v100, main_v101 ]
abbrev hostOps2_W : List (Ref sig .tc) :=
  [ main_c_22, main_v103, main_v104, main_c_23, main_v105, main_v106, main_v107, main_v108, main_v109, main_v110,
    main_v111, main_v112, main_cst_24, main_v113, main_v114, main_v115, main_v116, main_v117 ]
abbrev hostOps3_W : List (Ref sig .tc) :=
  [ main_cst_25, main_v119, main_v120, main_v121, main_c_26, main_v122, main_v123, main_c_27, main_v124, main_v125,
    main_v126, main_v127, main_v128, main_v129, main_v130, main_c_28, main_v131, main_v132, main_c_29, main_v133,
    main_v134, main_v135, main_v136, main_v137, main_v138, main_v139, main_c_30, main_v140, main_v141, main_c_31,
    main_v142, main_v143, main_v144, main_v145, main_v146 ]
abbrev hostOps4_W : List (Ref sig .tc) :=
  [ main_v148, main_v149, main_v150, main_v151, main_v152, main_v153 ]

theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))
theorem hostOps_writes : [(hostOps0, hostOps0_W), (hostOps1, hostOps1_W), (hostOps2, hostOps2_W), (hostOps3, hostOps3_W),
      ((hostOps4 : List (HloOp τ sig (Elt F))), hostOps4_W)].Forall
    fun x => x.1.Forall fun op => op.writes ⊆ (x.2.map (Proc.devRef (τ := τ) .tc)).toFinset := by
  simp only [List.Forall]; repeat' apply And.intro
  all_goals exact writes_sub_of_mem (by decide)

theorem W3_of (c : Dev nD) (r : Ref sig .tc) (h : r ∉ hostOps1_W) : W3 m ρ c (Proc.devRef .tc r) = W2 m ρ c (Proc.devRef .tc r) :=
  StableHlo.after_of_writes_sub hostOps1 _ hostOps_writes.2.1 h
theorem W7_of (c : Dev nD) (r : Ref sig .tc) (h : r ∉ hostOps3_W) : W7 m ρ c (Proc.devRef .tc r) = W6 m ρ c (Proc.devRef .tc r) :=
  StableHlo.after_of_writes_sub hostOps3 _ hostOps_writes.2.2.2.1 h

-- The exit contents agree with the entry contents at a reference no output window is over: an input window's array ends as entered.
theorem exitVal_keep {cfg : Cfg sig Λ₀} {c : Dev nD} (d : Dat τ (Elt F) Unit ℕ (UR sig nD τ) ℕ cfg c) (hi : Function.Injective (Pipeline.arrRef cfg.spec))
    (V : Valuation τ sig (Elt F)) (hA : ∀ w, d.A w = V (Proc.devRef .tc (Pipeline.arrRef cfg.spec w))) (r : Ref sig .tc)
    (h : ∀ w, (cfg.win w).isOut = true → Pipeline.arrRef cfg.spec w ≠ r) :
    Pipeline.withArrays cfg.spec c V (fun w => d.arrAt w cfg.N) (Proc.devRef .tc r) = V (Proc.devRef .tc r) := by
  by_cases hr : ∃ w, Pipeline.arrRef cfg.spec w = r
  · obtain ⟨w, rfl⟩ := hr
    rw [Pipeline.withArrays_arr _ hi, d.arrAt_in w (Bool.eq_false_iff.mpr fun e => h w e rfl), hA]
  · exact Pipeline.withArrays_of_ne _ c _ _ r fun w e => hr ⟨w, e⟩
theorem W4_keep (c : Dev nD) (r : Ref sig .tc) (h : ∀ w, (cfg1.win w).isOut = true → Pipeline.arrRef spec1 w ≠ r) :
    W4 m ρ c (Proc.devRef .tc r) = W3 m ρ c (Proc.devRef .tc r) :=
  exitVal_keep (dat1 (V3 m ρ) c) launch1.win.arr_inj _ (A_eq1 _ c) r h
theorem W8_keep (c : Dev nD) (r : Ref sig .tc) (h : ∀ w, (cfg3.win w).isOut = true → Pipeline.arrRef spec3 w ≠ r) :
    W8 m ρ c (Proc.devRef .tc r) = W7 m ρ c (Proc.devRef .tc r) :=
  exitVal_keep (dat3 (V7 m ρ) c) launch3.win.arr_inj _ (A_eq3 _ c) r h

structure Untouched (r : Ref sig .tc) : Prop where
  h0 : r ∉ hostOps0_W
  k0 : ∀ w, (cfg0.win w).isOut = true → Pipeline.arrRef spec0 w ≠ r
  h1 : r ∉ hostOps1_W
  k1 : ∀ w, (cfg1.win w).isOut = true → Pipeline.arrRef spec1 w ≠ r
  h2 : r ∉ hostOps2_W
  k2 : ∀ w, (cfg2.win w).isOut = true → Pipeline.arrRef spec2 w ≠ r
  h3 : r ∉ hostOps3_W
  k3 : ∀ w, (cfg3.win w).isOut = true → Pipeline.arrRef spec3 w ≠ r
  h4 : r ∉ hostOps4_W

theorem W1_arg (c : Dev nD) {r : Ref sig .tc} (h : Untouched r) : W1 m ρ c (Proc.devRef .tc r) = m ((c : Thread nD τ).loc r) :=
  StableHlo.after_of_writes_sub hostOps0 _ hostOps_writes.1 h.h0
theorem W2_arg (c : Dev nD) {r : Ref sig .tc} (h : Untouched r) : W2 m ρ c (Proc.devRef .tc r) = m ((c : Thread nD τ).loc r) :=
  (exitVal_keep (dat0 (V1 m ρ) c) launch0.win.arr_inj _ (A_eq0 _ c) r h.k0).trans (W1_arg m ρ c h)
theorem W3_arg (c : Dev nD) {r : Ref sig .tc} (h : Untouched r) : W3 m ρ c (Proc.devRef .tc r) = m ((c : Thread nD τ).loc r) :=
  (W3_of m ρ c r h.h1).trans (W2_arg m ρ c h)
theorem W4_arg (c : Dev nD) {r : Ref sig .tc} (h : Untouched r) : W4 m ρ c (Proc.devRef .tc r) = m ((c : Thread nD τ).loc r) :=
  (W4_keep m ρ c r h.k1).trans (W3_arg m ρ c h)
theorem W5_arg (c : Dev nD) {r : Ref sig .tc} (h : Untouched r) : W5 m ρ c (Proc.devRef .tc r) = m ((c : Thread nD τ).loc r) :=
  (StableHlo.after_of_writes_sub hostOps2 _ hostOps_writes.2.2.1 h.h2).trans (W4_arg m ρ c h)
theorem W6_arg (c : Dev nD) {r : Ref sig .tc} (h : Untouched r) : W6 m ρ c (Proc.devRef .tc r) = m ((c : Thread nD τ).loc r) :=
  (exitVal_keep (dat2 (V5 m ρ) c) launch2.win.arr_inj _ (A_eq2 _ c) r h.k2).trans (W5_arg m ρ c h)
theorem W7_arg (c : Dev nD) {r : Ref sig .tc} (h : Untouched r) : W7 m ρ c (Proc.devRef .tc r) = m ((c : Thread nD τ).loc r) :=
  (W7_of m ρ c r h.h3).trans (W6_arg m ρ c h)
theorem W8_arg (c : Dev nD) {r : Ref sig .tc} (h : Untouched r) : W8 m ρ c (Proc.devRef .tc r) = m ((c : Thread nD τ).loc r) :=
  (W8_keep m ρ c r h.k3).trans (W7_arg m ρ c h)
theorem W9_arg (c : Dev nD) {r : Ref sig .tc} (h : Untouched r) : W9 m ρ c (Proc.devRef .tc r) = m ((c : Thread nD τ).loc r) :=
  (StableHlo.after_of_writes_sub hostOps4 _ hostOps_writes.2.2.2.2 h.h4).trans (W8_arg m ρ c h)

theorem untouched_main_arg0 : Untouched main_arg0 := by constructor <;> decide
theorem untouched_main_arg1 : Untouched main_arg1 := by constructor <;> decide
theorem untouched_main_arg2 : Untouched main_arg2 := by constructor <;> decide
theorem untouched_main_arg3 : Untouched main_arg3 := by constructor <;> decide
theorem untouched_main_arg4 : Untouched main_arg4 := by constructor <;> decide
theorem untouched_main_arg5 : Untouched main_arg5 := by constructor <;> decide
theorem untouched_main_arg6 : Untouched main_arg6 := by constructor <;> decide
theorem untouched_main_arg7 : Untouched main_arg7 := by constructor <;> decide
theorem untouched_main_arg8 : Untouched main_arg8 := by constructor <;> decide
theorem untouched_main_arg9 : Untouched main_arg9 := by constructor <;> decide
theorem untouched_main_arg10 : Untouched main_arg10 := by constructor <;> decide
theorem untouched_main_arg11 : Untouched main_arg11 := by constructor <;> decide
theorem untouched_main_arg12 : Untouched main_arg12 := by constructor <;> decide
theorem untouched_main_arg13 : Untouched main_arg13 := by constructor <;> decide
theorem untouched_main_arg14 : Untouched main_arg14 := by constructor <;> decide

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k {a : Ref sig .tc} (u : Untouched a) (s : ¬ (Proc.devRef .tc a : DevRef τ sig).isScoped) :
        r.2.mem ((c.tc : Thread nD τ).loc a) = m ((c.tc : Thread nD τ).loc a) := (h c _ (mem_uc a s)).trans (W9_arg m ρ c u)
    ⟨k untouched_main_arg0 (by decide),
     k untouched_main_arg1 (by decide),
     k untouched_main_arg2 (by decide),
     k untouched_main_arg3 (by decide),
     k untouched_main_arg4 (by decide),
     k untouched_main_arg5 (by decide),
     k untouched_main_arg6 (by decide),
     k untouched_main_arg7 (by decide),
     k untouched_main_arg8 (by decide),
     k untouched_main_arg9 (by decide),
     k untouched_main_arg10 (by decide),
     k untouched_main_arg11 (by decide),
     k untouched_main_arg12 (by decide),
     k untouched_main_arg13 (by decide),
     k untouched_main_arg14 (by decide)⟩) (run_all m ρ)

end Cert.Kernel.Hand

end
-- ==== Proof.Ideal.Region0.lean ====
import proofs.«422434_j9131100471786_3_alg».proof.Proof.Gen.KernelIdeal.Launch
import proofs.«422434_j9131100471786_3_alg».proof.Proof.Gen.KernelIdeal.Skeleton
import proofs.«422434_j9131100471786_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S4000x3 := Rect.unit (s := S4000x3) ![0, 0] S4000x3.size inb_S4000x3_S4000x3_0_0
abbrev r0_w : Rect S3x32 := Rect.unit (s := S3x32) ![0, 0] S3x32.size inb_S3x32_S3x32_0_0
abbrev r0_o : Rect S4000x32 := Rect.unit (s := S4000x32) ![0, 0] S4000x32.size inb_S4000x32_S4000x32_0_0

def out0_4 (x0 x1 x2 : Vec F S4000x3 .f32) : Vec F S4000x3 .f32 :=
  View.canon [⟨r0_a, k0_pay1 (View.ld x0 r0_a) (View.ld x1 r0_a) (View.ld x2 r0_a)⟩]

def out0_5 (x0 x1 x2 : Vec F S4000x3 .f32) (x3 : Vec F S3x32 .f32) : Vec F S4000x32 .f32 :=
  View.canon [⟨r0_o, k0_pay2 (View.ld x0 r0_a) (View.ld x1 r0_a) (View.ld x2 r0_a) (View.ld x3 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

-- What the body is entered with: each input's buffer at the current point's block.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

-- The body run once at a generic point: the inputs are only read, and each result is one store over its whole buffer, so it reads back as the stored payload.
theorem body_obligation0 (c : Dev nD) : BodyObligation (dat0 (F := F) V c) (defs₀ (F := F)) Variants.none () Set.univ := fun t => by
  rw [bigSep_W0, bigSep_W0]
  simp only [before0_0, before0_1, before0_2, before0_3]
  dsimp only [dat0]
  show _ ⊢ wp _ _ _ (bodyAt0 t) _
  unfold bodyAt0
  generalize iblk0 V c 0 t = x0, iblk0 V c 1 t = x1, iblk0 V c 2 t = x2, iblk0 V c 3 t = x3
  simp only [cc0__fused_divmm1_kernel_eq_skeleton]; unfold cc0__fused_divmm1_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  subst hf0 hf1 hf2 hf3
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]
  · iexists _; iframe H4; ipureintro
    exact View.read_writes_eq_canon _ _ _ (View.cover_of_tiled _ S4000x3.size (by rfl))
  iexists _; iframe H5; ipureintro
  exact View.read_writes_eq_canon _ _ _ (View.cover_of_tiled _ S4000x32.size (by rfl))

end Cert.KernelIdeal.Hand

end
-- ==== Proof.Ideal.Region1.lean ====
import proofs.«422434_j9131100471786_3_alg».proof.Proof.Gen.KernelIdeal.Launch
import proofs.«422434_j9131100471786_3_alg».proof.Proof.Gen.KernelIdeal.Skeleton
import proofs.«422434_j9131100471786_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S4000x32 := Rect.unit (s := S4000x32) ![0, 0] S4000x32.size inb_S4000x32_S4000x32_0_0
abbrev r1_d : Rect S4000x1 := Rect.unit (s := S4000x1) ![0, 0] S4000x1.size inb_S4000x1_S4000x1_0_0
abbrev r1_b : Rect S1x32 := Rect.unit (s := S1x32) ![0, 0] S1x32.size inb_S1x32_S1x32_0_0
abbrev r1_w : Rect S32x32 := Rect.unit (s := S32x32) ![0, 0] S32x32.size inb_S32x32_S32x32_0_0

def out1_5 (x0 x1 : Vec F S4000x32 .f32) (x2 : Vec F S4000x1 .f32) (x3 : Vec F S1x32 .f32) (x4 : Vec F S32x32 .f32) : Vec F S4000x32 .f32 :=
  View.canon [⟨r1_a, k1_pay1 (View.ld x0 r1_a) (View.ld x1 r1_a) (View.ld x2 r1_d) (View.ld x3 r1_b) (View.ld x4 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body is entered with: each input's buffer at the current point's block.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

-- The body run once at a generic point: the inputs are only read, and each result is one store over its whole buffer, so it reads back as the stored payload.
theorem body_obligation1 (c : Dev nD) : BodyObligation (dat1 (F := F) V c) (defs₀ (F := F)) Variants.none () Set.univ := fun t => by
  rw [bigSep_W1, bigSep_W1]
  simp only [before1_0, before1_1, before1_2, before1_3, before1_4]
  dsimp only [dat1]
  show _ ⊢ wp _ _ _ (bodyAt1 t) _
  unfold bodyAt1
  generalize iblk1 V c 0 t = x0, iblk1 V c 1 t = x1, iblk1 V c 2 t = x2, iblk1 V c 3 t = x3, iblk1 V c 4 t = x4
  simp only [cc1__fused_relu_mm2_kernel_eq_skeleton]; unfold cc1__fused_relu_mm2_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S4000x32.size (by rfl))

end Cert.KernelIdeal.Hand

end
-- ==== Proof.Ideal.Region2.lean ====
import proofs.«422434_j9131100471786_3_alg».proof.Proof.Gen.KernelIdeal.Launch
import proofs.«422434_j9131100471786_3_alg».proof.Proof.Gen.KernelIdeal.Skeleton
import proofs.«422434_j9131100471786_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S4000x32 := Rect.unit (s := S4000x32) ![0, 0] S4000x32.size inb_S4000x32_S4000x32_0_0
abbrev r2_d : Rect S4000x1 := Rect.unit (s := S4000x1) ![0, 0] S4000x1.size inb_S4000x1_S4000x1_0_0
abbrev r2_b : Rect S1x32 := Rect.unit (s := S1x32) ![0, 0] S1x32.size inb_S1x32_S1x32_0_0
abbrev r2_w : Rect S32x3 := Rect.unit (s := S32x3) ![0, 0] S32x3.size inb_S32x3_S32x3_0_0
abbrev r2_c : Rect S1x3 := Rect.unit (s := S1x3) ![0, 0] S1x3.size inb_S1x3_S1x3_0_0
abbrev r2_t : Rect S4000x3 := Rect.unit (s := S4000x3) ![0, 0] S4000x3.size inb_S4000x3_S4000x3_0_0

def out2_7 (x0 x1 : Vec F S4000x32 .f32) (x2 : Vec F S4000x1 .f32) (x3 : Vec F S1x32 .f32) (x4 : Vec F S32x3 .f32) (x5 : Vec F S1x3 .f32) : Vec F S4000x3 .f32 :=
  View.canon [⟨r2_t, k2_pay1 (View.ld x0 r2_a) (View.ld x1 r2_a) (View.ld x2 r2_d) (View.ld x3 r2_b) (View.ld x4 r2_w) (View.ld x5 r2_c)⟩]

def out2_8 (x0 x1 : Vec F S4000x32 .f32) (x2 : Vec F S4000x1 .f32) (x3 : Vec F S1x32 .f32) (x4 : Vec F S32x3 .f32) (x5 : Vec F S1x3 .f32) (x6 : Vec F S4000x3 .f32) : Vec F S4000x3 .f32 :=
  View.canon [⟨r2_t, k2_pay2 (View.ld x0 r2_a) (View.ld x1 r2_a) (View.ld x2 r2_d) (View.ld x3 r2_b) (View.ld x4 r2_w) (View.ld x5 r2_c) (View.ld x6 r2_t)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) := by dsimp only [dat2]

-- What the body is entered with: each input's buffer at the current point's block.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

-- The body run once at a generic point: the inputs are only read, and each result is one store over its whole buffer, so it reads back as the stored payload.
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6]
  dsimp only [dat2]
  show _ ⊢ wp _ _ _ (bodyAt2 t) _
  unfold bodyAt2
  generalize iblk2 V c 0 t = x0, iblk2 V c 1 t = x1, iblk2 V c 2 t = x2, iblk2 V c 3 t = x3, iblk2 V c 4 t = x4, iblk2 V c 5 t = x5, iblk2 V c 6 t = x6
  simp only [cc2__fused_relu_head_kernel_eq_skeleton]; unfold cc2__fused_relu_head_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩⟩
  subst hf0 hf1 hf2 hf3 hf4 hf5 hf6
  sl_exec
  sl_step
  isplitl [HΦ]; · iexact HΦ
  isplitl [Ho]; · iexact Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]
  · iexists _; iframe H7; ipureintro
    exact View.read_writes_eq_canon _ _ _ (View.cover_of_tiled _ S4000x3.size (by rfl))
  iexists _; iframe H8; ipureintro
  exact View.read_writes_eq_canon _ _ _ (View.cover_of_tiled _ S4000x3.size (by rfl))

end Cert.KernelIdeal.Hand

end
-- ==== Proof.Ideal.Region3.lean ====
import proofs.«422434_j9131100471786_3_alg».proof.Proof.Gen.KernelIdeal.Launch
import proofs.«422434_j9131100471786_3_alg».proof.Proof.Gen.KernelIdeal.Skeleton
import proofs.«422434_j9131100471786_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def pay3 (a b u : F .f32) : F .f32 :=
  FloatOps.addf (Scalar.select (FloatOps.cmpf .ogt b (Scalar.ofBits .f32 0x00000000#32)) (Scalar.ofBits .f32 0x00000000#32) a) u

-- Every operation of the stored vector acts index by index.
theorem k3_pay1_apply (v0 v1 v2 : Vec F S131072 .f32) (j : S131072.Idx) :
    k3_pay1 v0 v1 v2 j = pay3 (v0 j) (v1 j) (v2 j) := by
  have h2 : shapeCast S131072 v2 shapeCasts_S131072_S131072 j = v2 j := congrArg v2 (Shape.reshapeEquiv_self _ j)
  unfold k3_pay1 pay3
  show FloatOps.addf _ (shapeCast S131072 v2 shapeCasts_S131072_S131072 j) = _
  rw [h2]; rfl

abbrev r3_a : Rect S131072 := Rect.unit (s := S131072) ![0] S131072.size inb_S131072_S131072_0

theorem r3_a_idx (j : S131072.Idx) : r3_a.idx j = j := by
  funext a; apply Fin.ext
  have ha : a = 0 := Subsingleton.elim _ _
  subst ha
  show 0 + 1 * (j 0 : Nat) = j 0
  omega

def out3_3 (x0 x1 x2 : Vec F S131072 .f32) : Vec F S131072 .f32 :=
  View.canon [⟨r3_a, k3_pay1 (View.ld x0 r3_a) (View.ld x1 r3_a) (View.ld x2 r3_a)⟩]

theorem out3_3_apply (x0 x1 x2 : Vec F S131072 .f32) (j : S131072.Idx) :
    out3_3 x0 x1 x2 j = pay3 (x0 j) (x1 j) (x2 j) := by
  have hj : r3_a.emb j = j := r3_a_idx j
  unfold out3_3
  conv_lhs => rw [← hj]
  rw [View.canon_cons_emb, k3_pay1_apply]
  show pay3 (x0 (r3_a.idx j)) (x1 (r3_a.idx j)) (x2 (r3_a.idx j)) = _
  rw [r3_a_idx]

-- The stored vector at an index reads the inputs at that index only, so filling it out with the payload of the inputs' words inside the array changes nothing.
theorem out3_3_fill (i : grid3.Coords) (X0 X1 X2 : S131072.Idx → F .f32) (g : ((cfg3.win 3).xblock i).Idx → F .f32)
    (hg : ∀ j, g j = pay3 ((cfg3.win 0).cut i X0 j) ((cfg3.win 1).cut i X1 j) ((cfg3.win 2).cut i X2 j)) :
    (cfg3.win 3).fill i (out3_3 X0 X1 X2) g = out3_3 X0 X1 X2 :=
  (congrArg ((cfg3.win 3).fill i _) (funext fun j => (out3_3_apply ..).trans (hg j).symm)).symm.trans ((cfg3.win 3).fill_cut i _)

def oblk3 (c : Dev nD) (t : Fin cfg3.N) : ((cfg3.win 3).xblock (cfg3.grid.coords t)).Idx → Elt F (cfg3.win 3).elt :=
  fun j => pay3 (iblk3 V c 0 t j) (iblk3 V c 1 t j) (iblk3 V c 2 t j)

def dat3 (c : Dev nD) : Dat τ (Elt F) Unit ℕ (UR sig nD τ) ℕ cfg3 c where
  A w := V c (Pipeline.arrRef spec3 w)
  after w t := match w with
    | ⟨0, _⟩ => (cfg3.win 0).fill (cfg3.grid.coords t) (fun _ => Scalar.ofBits .f32 0x00000000#32) (iblk3 V c 0 t)
    | ⟨1, _⟩ => (cfg3.win 1).fill (cfg3.grid.coords t) (fun _ => Scalar.ofBits .f32 0x00000000#32) (iblk3 V c 1 t)
    | ⟨2, _⟩ => (cfg3.win 2).fill (cfg3.grid.coords t) (fun _ => Scalar.ofBits .f32 0x00000000#32) (iblk3 V c 2 t)
    | ⟨3, _⟩ => (cfg3.win 3).fill (cfg3.grid.coords t) (fun _ => Scalar.ofBits .f32 0x00000000#32) (oblk3 V c t)
  Φ _ := Pipeline.ΦA spec3 c
  q _ := fullShare
  owed _ := 0

theorem A_eq3 (c : Dev nD) (w : Fin cfg3.W) : (dat3 V c).A w = V c (Pipeline.arrRef spec3 w) := rfl

-- Cut to the array, what the body leaves in the result's buffer is the word-by-word payload of the input blocks.
theorem flushed3_3 (c : Dev nD) (t : Fin cfg3.N) :
    (dat3 V c).flushed 3 t = oblk3 V c t := (cfg3.win 3).cut_fill _ _ _

-- What the body is entered with: each input's buffer at the current point's block inside the array, anything past it.
theorem before3_0 (c : Dev nD) (t : Fin cfg3.N) (d) :
    (dat3 V c).before 0 t d = (cfg3.win 0).fill (cfg3.grid.coords t) d (iblk3 V c 0 t) := (dat3 V c).before_fetched 0 t (fetch3_0 t) d
theorem before3_1 (c : Dev nD) (t : Fin cfg3.N) (d) :
    (dat3 V c).before 1 t d = (cfg3.win 1).fill (cfg3.grid.coords t) d (iblk3 V c 1 t) := (dat3 V c).before_fetched 1 t (fetch3_1 t) d
theorem before3_2 (c : Dev nD) (t : Fin cfg3.N) (d) :
    (dat3 V c).before 2 t d = (cfg3.win 2).fill (cfg3.grid.coords t) d (iblk3 V c 2 t) := (dat3 V c).before_fetched 2 t (fetch3_2 t) d

-- The body run once at a generic point: the inputs hold their blocks inside the array and anything past it, and are only read; the result is one store over its whole buffer, inside the array the word-by-word payload of the blocks.
theorem body_obligation3 (c : Dev nD) : Pipeline.BodyObligationLoose (dat3 (F := F) V c) (defs₀ (F := F)) Variants.none () Set.univ := fun t => by
  rw [bigSep_W3, bigSep_W3]
  simp only [before3_0, before3_1, before3_2]
  dsimp only [dat3]
  simp only [Window.cut_fill]
  show _ ⊢ wp _ _ _ (bodyAt3 t) _
  unfold bodyAt3
  simp only [cc3__edge_finalize_kernel_eq_skeleton]; unfold cc3__edge_finalize_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  isplitl [HΦ]; · iexact HΦ
  isplitl [Ho]; · iexact Ho
  isplitl [H0]; · iexists d0, f0; iframe H0; ipureintro; exact hf0
  isplitl [H1]; · iexists d1, f1; iframe H1; ipureintro; exact hf1
  isplitl [H2]; · iexists d2, f2; iframe H2; ipureintro; exact hf2
  iexists _, _; iframe H3; ipureintro
  refine (View.read_writes_eq_canon _ _ _ (View.cover_of_tiled _ S131072.size (by rfl))).trans (out3_3_fill _ _ _ _ _ fun j => ?_).symm
  rw [hf0, hf1, hf2]
  exact (congr (congr (congrArg pay3 ((cfg3.win 0).fill_xinj _ d0 _ j)) ((cfg3.win 1).fill_xinj _ d1 _ j)) ((cfg3.win 2).fill_xinj _ d2 _ j)).symm

def res3 (c : Dev nD) : Buf (Elt F) ((c : Thread nD τ).loc (Pipeline.arrRef spec3 3)) :=
  fun k => pay3 (V c (Pipeline.arrRef spec3 0) k) (V c (Pipeline.arrRef spec3 1) k) (V c (Pipeline.arrRef spec3 2) k)

-- A block of a word-by-word function of arrays is that function of their blocks: the four windows read one rectangle.
theorem oblk3_eq_read (c : Dev nD) (t : Fin cfg3.N) :
    oblk3 V c t = ((cfg3.win 3).blk t).view.read (Elt F) (res3 V c) := by
  funext j; rfl

end Cert.KernelIdeal.Hand

end
-- ==== Proof.Ideal.Run.lean ====
import proofs.«422434_j9131100471786_3_alg».proof.Proof.Gen.KernelIdeal.Launch
import proofs.«422434_j9131100471786_3_alg».proof.Proof.Gen.KernelIdeal.Skeleton
import proofs.«422434_j9131100471786_3_alg».proof.Proof.Gen.KernelIdeal.Points
import proofs.«422434_j9131100471786_3_alg».proof.Proof.Ideal.Region0
import proofs.«422434_j9131100471786_3_alg».proof.Proof.Ideal.Region1
import proofs.«422434_j9131100471786_3_alg».proof.Proof.Ideal.Region2
import proofs.«422434_j9131100471786_3_alg».proof.Proof.Ideal.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
abbrev W9 : Dev nD → Valuation τ sig (Elt F) := fun c => StableHlo.after hostOps4 (W8 m ρ c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- A stretch of host operations takes every unscoped buffer from W to the stretch's fold of W.
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps_fresh : [hostOps0, hostOps1, hostOps2, hostOps3, (hostOps4 : List (HloOp τ sig (Elt F)))].Forall (·.Forall fun op => op.fresh = ∅) := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

-- The contents region p leaves from V: its arrays as its proof data fold them, every other buffer as in V.
abbrev exitVal (p : Fin 4) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in
-- Region p between two boundaries: it takes every unscoped buffer from V to exitVal p V.
def regionSeg (p : Fin 4) (ln : Pipeline.LaunchFacts (nD := nD) (τ := τ) cfgs p) (V : Dev nD → Valuation τ sig (Elt F))
    (hb : ∀ c, Pipeline.BodyObligationLoose (pdats m ρ p c) defs₀ 𝒱₀ () Set.univ)
    (hq : ∀ c w, (pdats m ρ p c).q w = fullShare)
    (hA : ∀ c w, (pdats m ρ p c).A w = V c (Proc.devRef .tc (Pipeline.arrRef (cfgs p).spec w)))
    (hΦ : ∀ c t, (pdats m ρ p c).Φ t = Pipeline.ΦA (cfgs p).spec c)
    (ho : ∀ c t, (pdats m ρ p c).owed t = 0) (hr : ∀ c, (pdats m ρ p c).recorded 0 = Set.univ) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (exitVal m ρ p V c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c (Proc.devRef .tc b)
  hentry c := by
    rw [Pipeline.ownSems0_none]
    have hsplit := Pipeline.arrays_of_unscopedBufs (p := p) (pcfgs (F := F)) adm (pdats m ρ) ln.win ln.arr_whole c
      ((pdats m ρ p c).share_full (hq c)) (fun b => V c (Proc.devRef .tc b)) (hA c)
    rw [Pipeline.unscopedBufs_held] at hsplit
    iintro ⟨⟨Hub, Hp, %W, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho c 0, hr c]
    iexists W; isplitr; · ipureintro; exact fun _ _ => Or.inl trivial
    iexact HO
  hin c := by
    rw [hΦ c 0]; unfold Pipeline.ΦA
    iintro ⟨Hp, -, Hr⟩; iframe
  hout c := by
    rw [Pipeline.ownSems0_none, hΦ c (Fin.last _)]; unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (fun b => V c (Proc.devRef .tc b)) (fun b => exitVal m ρ p V c (Proc.devRef .tc b)) ((pdats m ρ p c).arrAt · (cfgs p).N)
      (fun w => (Pipeline.withArrays_arr (cfgs p).spec ln.win.arr_inj c (V c) (fun w => (pdats m ρ p c).arrAt w (cfgs p).N) w).symm)
      (fun b hb => Pipeline.withArrays_of_ne _ c _ _ b fun w e => hb (Finset.mem_image.mpr ⟨w, Finset.mem_univ _, e⟩))
    rw [Pipeline.unscopedBufs_held] at hjoin
    unfold Pipeline.Dat.owesAt Pipeline.owesWithin; rw [ho c (Fin.last _)]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub hostOps_fresh.1 (W0 m ρ)),
    .region (regionSeg m ρ 0 launch0 (W1 m ρ) (fun c => (body_obligation0 (V1 m ρ) c).loose) (fun _ _ => rfl) (fun _ _ => rfl) (fun _ _ => rfl) (fun _ _ => rfl) fun _ => rfl),
    .host (hseg hostOps1 hostOps1_sub hostOps_fresh.2.1 (W2 m ρ)),
    .region (regionSeg m ρ 1 launch1 (W3 m ρ) (fun c => (body_obligation1 (V3 m ρ) c).loose) (fun _ _ => rfl) (fun _ _ => rfl) (fun _ _ => rfl) (fun _ _ => rfl) fun _ => rfl),
    .host (hseg hostOps2 hostOps2_sub hostOps_fresh.2.2.1 (W4 m ρ)),
    .region (regionSeg m ρ 2 launch2 (W5 m ρ) (fun c => (body_obligation2 (V5 m ρ) c).loose) (fun _ _ => rfl) (fun _ _ => rfl) (fun _ _ => rfl) (fun _ _ => rfl) fun _ => rfl),
    .host (hseg hostOps3 hostOps3_sub hostOps_fresh.2.2.2.1 (W6 m ρ)),
    .region (regionSeg m ρ 3 launch3 (W7 m ρ) (body_obligation3 (V7 m ρ)) (fun _ _ => rfl) (fun _ _ => rfl) (fun _ _ => rfl) (fun _ _ => rfl) fun _ => rfl),
    .host (hseg hostOps4 hostOps4_sub hostOps_fresh.2.2.2.2 (W8 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

abbrev hostOps0_W : List (Ref sig .tc) :=
  [ main_c, main_v0, main_v1, main_c_0, main_v2, main_v3, main_v4, main_v5, main_v6, main_c_1,
    main_v7, main_v8, main_c_2, main_v9, main_v10, main_v11, main_v12, main_v13, main_c_3, main_v14,
    main_v15, main_c_4, main_v16, main_v17, main_v18, main_v19, main_v20, main_v21, main_v22, main_v23,
    main_v24, main_c_5, main_v25, main_v26, main_c_6, main_v27, main_v28, main_v29, main_v30, main_v31,
    main_c_7, main_v32, main_v33, main_c_8, main_v34, main_v35, main_v36, main_v37, main_v38, main_c_9,
    main_v39, main_v40, main_c_10, main_v41, main_v42, main_v43, main_v44, main_v45, main_v46, main_v47,
    main_v48, main_v49, main_v50, main_v51, main_v52, main_v53 ]
abbrev hostOps1_W : List (Ref sig .tc) :=
  [ main_v55, main_v56, main_v57, main_v58, main_cst, main_v59, main_c_11, main_v60, main_v61, main_c_12,
    main_v62, main_v63, main_v64, main_v65, main_cst_13, main_v66, main_v67, main_cst_14, main_v68, main_v69,
    main_v70, main_c_15, main_v71, main_v72, main_c_16, main_v73, main_v74, main_v75, main_v76, main_v77,
    main_c_17, main_v78, main_v79, main_c_18, main_v80, main_v81, main_v82, main_v83, main_v84, main_v85,
    main_v86, main_v87, main_c_19, main_v88, main_v89, main_c_20, main_v90, main_v91, main_v92, main_v93,
    main_v94, main_v95, main_v96, main_v97, main_cst_21, main_v98, main_v99, main_v100, main_v101 ]
abbrev hostOps2_W : List (Ref sig .tc) :=
  [ main_c_22, main_v103, main_v104, main_c_23, main_v105, main_v106, main_v107, main_v108, main_v109, main_v110,
    main_v111, main_v112, main_cst_24, main_v113, main_v114, main_v115, main_v116, main_v117 ]
abbrev hostOps3_W : List (Ref sig .tc) :=
  [ main_cst_25, main_v119, main_v120, main_v121, main_c_26, main_v122, main_v123, main_c_27, main_v124, main_v125,
    main_v126, main_v127, main_v128, main_v129, main_v130, main_c_28, main_v131, main_v132, main_c_29, main_v133,
    main_v134, main_v135, main_v136, main_v137, main_v138, main_v139, main_c_30, main_v140, main_v141, main_c_31,
    main_v142, main_v143, main_v144, main_v145, main_v146 ]
abbrev hostOps4_W : List (Ref sig .tc) :=
  [ main_v148, main_v149, main_v150, main_v151, main_v152, main_v153 ]

theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))
theorem hostOps_writes : [(hostOps0, hostOps0_W), (hostOps1, hostOps1_W), (hostOps2, hostOps2_W), (hostOps3, hostOps3_W),
      ((hostOps4 : List (HloOp τ sig (Elt F))), hostOps4_W)].Forall
    fun x => x.1.Forall fun op => op.writes ⊆ (x.2.map (Proc.devRef (τ := τ) .tc)).toFinset := by
  simp only [List.Forall]; repeat' apply And.intro
  all_goals exact writes_sub_of_mem (by decide)

theorem W3_of (c : Dev nD) (r : Ref sig .tc) (h : r ∉ hostOps1_W) : W3 m ρ c (Proc.devRef .tc r) = W2 m ρ c (Proc.devRef .tc r) :=
  StableHlo.after_of_writes_sub hostOps1 _ hostOps_writes.2.1 h
theorem W7_of (c : Dev nD) (r : Ref sig .tc) (h : r ∉ hostOps3_W) : W7 m ρ c (Proc.devRef .tc r) = W6 m ρ c (Proc.devRef .tc r) :=
  StableHlo.after_of_writes_sub hostOps3 _ hostOps_writes.2.2.2.1 h

-- The exit contents agree with the entry contents at a reference no output window is over: an input window's array ends as entered.
theorem exitVal_keep {cfg : Cfg sig Λ₀} {c : Dev nD} (d : Dat τ (Elt F) Unit ℕ (UR sig nD τ) ℕ cfg c) (hi : Function.Injective (Pipeline.arrRef cfg.spec))
    (V : Valuation τ sig (Elt F)) (hA : ∀ w, d.A w = V (Proc.devRef .tc (Pipeline.arrRef cfg.spec w))) (r : Ref sig .tc)
    (h : ∀ w, (cfg.win w).isOut = true → Pipeline.arrRef cfg.spec w ≠ r) :
    Pipeline.withArrays cfg.spec c V (fun w => d.arrAt w cfg.N) (Proc.devRef .tc r) = V (Proc.devRef .tc r) := by
  by_cases hr : ∃ w, Pipeline.arrRef cfg.spec w = r
  · obtain ⟨w, rfl⟩ := hr
    rw [Pipeline.withArrays_arr _ hi, d.arrAt_in w (Bool.eq_false_iff.mpr fun e => h w e rfl), hA]
  · exact Pipeline.withArrays_of_ne _ c _ _ r fun w e => hr ⟨w, e⟩
theorem W4_keep (c : Dev nD) (r : Ref sig .tc) (h : ∀ w, (cfg1.win w).isOut = true → Pipeline.arrRef spec1 w ≠ r) :
    W4 m ρ c (Proc.devRef .tc r) = W3 m ρ c (Proc.devRef .tc r) :=
  exitVal_keep (dat1 (V3 m ρ) c) launch1.win.arr_inj _ (A_eq1 _ c) r h
theorem W8_keep (c : Dev nD) (r : Ref sig .tc) (h : ∀ w, (cfg3.win w).isOut = true → Pipeline.arrRef spec3 w ≠ r) :
    W8 m ρ c (Proc.devRef .tc r) = W7 m ρ c (Proc.devRef .tc r) :=
  exitVal_keep (dat3 (V7 m ρ) c) launch3.win.arr_inj _ (A_eq3 _ c) r h

structure Untouched (r : Ref sig .tc) : Prop where
  h0 : r ∉ hostOps0_W
  k0 : ∀ w, (cfg0.win w).isOut = true → Pipeline.arrRef spec0 w ≠ r
  h1 : r ∉ hostOps1_W
  k1 : ∀ w, (cfg1.win w).isOut = true → Pipeline.arrRef spec1 w ≠ r
  h2 : r ∉ hostOps2_W
  k2 : ∀ w, (cfg2.win w).isOut = true → Pipeline.arrRef spec2 w ≠ r
  h3 : r ∉ hostOps3_W
  k3 : ∀ w, (cfg3.win w).isOut = true → Pipeline.arrRef spec3 w ≠ r
  h4 : r ∉ hostOps4_W

theorem W1_arg (c : Dev nD) {r : Ref sig .tc} (h : Untouched r) : W1 m ρ c (Proc.devRef .tc r) = m ((c : Thread nD τ).loc r) :=
  StableHlo.after_of_writes_sub hostOps0 _ hostOps_writes.1 h.h0
theorem W2_arg (c : Dev nD) {r : Ref sig .tc} (h : Untouched r) : W2 m ρ c (Proc.devRef .tc r) = m ((c : Thread nD τ).loc r) :=
  (exitVal_keep (dat0 (V1 m ρ) c) launch0.win.arr_inj _ (A_eq0 _ c) r h.k0).trans (W1_arg m ρ c h)
theorem W3_arg (c : Dev nD) {r : Ref sig .tc} (h : Untouched r) : W3 m ρ c (Proc.devRef .tc r) = m ((c : Thread nD τ).loc r) :=
  (W3_of m ρ c r h.h1).trans (W2_arg m ρ c h)
theorem W4_arg (c : Dev nD) {r : Ref sig .tc} (h : Untouched r) : W4 m ρ c (Proc.devRef .tc r) = m ((c : Thread nD τ).loc r) :=
  (W4_keep m ρ c r h.k1).trans (W3_arg m ρ c h)
theorem W5_arg (c : Dev nD) {r : Ref sig .tc} (h : Untouched r) : W5 m ρ c (Proc.devRef .tc r) = m ((c : Thread nD τ).loc r) :=
  (StableHlo.after_of_writes_sub hostOps2 _ hostOps_writes.2.2.1 h.h2).trans (W4_arg m ρ c h)
theorem W6_arg (c : Dev nD) {r : Ref sig .tc} (h : Untouched r) : W6 m ρ c (Proc.devRef .tc r) = m ((c : Thread nD τ).loc r) :=
  (exitVal_keep (dat2 (V5 m ρ) c) launch2.win.arr_inj _ (A_eq2 _ c) r h.k2).trans (W5_arg m ρ c h)
theorem W7_arg (c : Dev nD) {r : Ref sig .tc} (h : Untouched r) : W7 m ρ c (Proc.devRef .tc r) = m ((c : Thread nD τ).loc r) :=
  (W7_of m ρ c r h.h3).trans (W6_arg m ρ c h)
theorem W8_arg (c : Dev nD) {r : Ref sig .tc} (h : Untouched r) : W8 m ρ c (Proc.devRef .tc r) = m ((c : Thread nD τ).loc r) :=
  (W8_keep m ρ c r h.k3).trans (W7_arg m ρ c h)
theorem W9_arg (c : Dev nD) {r : Ref sig .tc} (h : Untouched r) : W9 m ρ c (Proc.devRef .tc r) = m ((c : Thread nD τ).loc r) :=
  (StableHlo.after_of_writes_sub hostOps4 _ hostOps_writes.2.2.2.2 h.h4).trans (W8_arg m ρ c h)

theorem untouched_main_arg0 : Untouched main_arg0 := by constructor <;> decide
theorem untouched_main_arg1 : Untouched main_arg1 := by constructor <;> decide
theorem untouched_main_arg2 : Untouched main_arg2 := by constructor <;> decide
theorem untouched_main_arg3 : Untouched main_arg3 := by constructor <;> decide
theorem untouched_main_arg4 : Untouched main_arg4 := by constructor <;> decide
theorem untouched_main_arg5 : Untouched main_arg5 := by constructor <;> decide
theorem untouched_main_arg6 : Untouched main_arg6 := by constructor <;> decide
theorem untouched_main_arg7 : Untouched main_arg7 := by constructor <;> decide
theorem untouched_main_arg8 : Untouched main_arg8 := by constructor <;> decide
theorem untouched_main_arg9 : Untouched main_arg9 := by constructor <;> decide
theorem untouched_main_arg10 : Untouched main_arg10 := by constructor <;> decide
theorem untouched_main_arg11 : Untouched main_arg11 := by constructor <;> decide
theorem untouched_main_arg12 : Untouched main_arg12 := by constructor <;> decide
theorem untouched_main_arg13 : Untouched main_arg13 := by constructor <;> decide
theorem untouched_main_arg14 : Untouched main_arg14 := by constructor <;> decide

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k {a : Ref sig .tc} (u : Untouched a) (s : ¬ (Proc.devRef .tc a : DevRef τ sig).isScoped) :
        r.2.mem ((c.tc : Thread nD τ).loc a) = m ((c.tc : Thread nD τ).loc a) := (h c _ (mem_uc a s)).trans (W9_arg m ρ c u)
    ⟨k untouched_main_arg0 (by decide),
     k untouched_main_arg1 (by decide),
     k untouched_main_arg2 (by decide),
     k untouched_main_arg3 (by decide),
     k untouched_main_arg4 (by decide),
     k untouched_main_arg5 (by decide),
     k untouched_main_arg6 (by decide),
     k untouched_main_arg7 (by decide),
     k untouched_main_arg8 (by decide),
     k untouched_main_arg9 (by decide),
     k untouched_main_arg10 (by decide),
     k untouched_main_arg11 (by decide),
     k untouched_main_arg12 (by decide),
     k untouched_main_arg13 (by decide),
     k untouched_main_arg14 (by decide)⟩) (run_all m ρ)

end Cert.KernelIdeal.Hand

end
-- ==== Proof.LibPlainProduct.lean ====
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- `[M, K] · [K, N]`: the left operand contracts its axis 1, the right its axis 0, no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem contr_rank (h : IsPlain D) : D.contr.rank = 1 := by
  rw [D.rank_contr, h.lc]; rfl

theorem contr_size (h : IsPlain D) (h0 : 0 < D.contr.rank) : D.contr.size ⟨0, h0⟩ = K := by
  rw [D.size_contr 0 (by rw [h.lc]; exact Nat.one_pos)]
  simp only [h.lc, List.getElem_cons_zero]
  rfl

private theorem coord_congr {s : Shape} (j : s.Idx) (a b : Nat) (ha : a < s.rank) (hb : b < s.rank) (e : a = b) :
    (j ⟨a, ha⟩).val = (j ⟨b, hb⟩).val := by subst e; rfl

theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- Entry `(p, q)`: the sum over the contraction index is `∑ k : Fin K, l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.Ideal.Val0.lean ====
import proofs.«422434_j9131100471786_3_alg».proof.Proof.Ideal.Region0
import proofs.«422434_j9131100471786_3_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev X53 (c : Dev nD) : S2000000x3.Idx → EReal := V c main_v53
abbrev X24 (c : Dev nD) : S2000000x3.Idx → EReal := V c main_v24
abbrev X49 (c : Dev nD) : S2000000x3.Idx → EReal := V c main_v49
abbrev X9 (c : Dev nD) : S3x32.Idx → EReal := V c main_arg9

def G0_4 (a0 a1 a2 : S2000000x3.Idx → EReal) : S2000000x3.Idx → EReal :=
  fun i => a0 i + Ideal.div (a1 i) (a2 i)

def G0_5 (a0 a1 a2 : S2000000x3.Idx → EReal) (w : S3x32.Idx → EReal) : S2000000x32.Idx → EReal :=
  fun i => ∑ k : Fin 3, G0_4 a0 a1 a2 (ix2 (⟨(i 0).val, idx2_lt0 i⟩ : Fin 2000000) k) * w (ix2 k (⟨(i 1).val, idx2_lt1 i⟩ : Fin 32))

theorem pay0_1_apply (x0 x1 x2 : Vec Ideal S4000x3 .f32) (p : Fin 4000) (q : Fin 3) :
    k0_pay1 x0 x1 x2 (ix2 p q) = x0 (ix2 p q) + Ideal.div (x1 (ix2 p q)) (x2 (ix2 p q)) := by
  unfold k0_pay1
  rw [shapeCast_self, shapeCast_self, shapeCast_self]
  rfl

theorem pay0_2_apply (x0 x1 x2 : Vec Ideal S4000x3 .f32) (x3 : Vec Ideal S3x32 .f32) (p : Fin 4000) (q : Fin 32) :
    k0_pay2 x0 x1 x2 x3 (ix2 p q)
      = ∑ k : Fin 3, (x0 (ix2 p k) + Ideal.div (x1 (ix2 p k)) (x2 (ix2 p k))) * x3 (ix2 k q) := by
  unfold k0_pay2
  refine (Cert.Lib.PlainProduct.matmul_zero_apply (D := dot_S4000x3_S3x32_S4000x32_1_0_0_1_n_n) ⟨rfl, rfl, rfl, rfl, rfl, rfl⟩ none _ _ p q).trans ?_
  refine Finset.sum_congr rfl fun k _ => ?_
  rw [truncf_apply, truncf_apply, pay0_1_apply]

theorem zeros0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

def row0 (t : Fin cfg0.N) (p : Fin 4000) : Fin 2000000 :=
  ⟨t.val * 4000 + p.val, by
    have ht : t.val < grid0.N := t.isLt
    rw [N_0] at ht
    have hp := p.isLt
    omega⟩

-- A block's coordinate in its array is the block's index times the block's size plus the coordinate inside the block.
theorem emb0 (t : Fin cfg0.N) (p : Fin 4000) :
    (∀ q, (((cfg0.win 0).blk t).view.emb (ix2 p q) : S2000000x3.Idx) = ix2 (row0 t p) q)
    ∧ (∀ q, (((cfg0.win 1).blk t).view.emb (ix2 p q) : S2000000x3.Idx) = ix2 (row0 t p) q)
    ∧ (∀ q, (((cfg0.win 2).blk t).view.emb (ix2 p q) : S2000000x3.Idx) = ix2 (row0 t p) q)
    ∧ (∀ q, (((cfg0.win 4).blk t).view.emb (ix2 p q) : S2000000x3.Idx) = ix2 (row0 t p) q)
    ∧ (∀ q, (((cfg0.win 5).blk t).view.emb (ix2 p q) : S2000000x32.Idx) = ix2 (row0 t p) q) := by
  obtain ⟨a0, a1, b0, b1, c0, c1, -, -, e0, e1, f0, f1⟩ := idx_facts0 t
  refine ⟨?_, ?_, ?_, ?_, ?_⟩ <;> intro q <;> refine Shape.idx_ext₂ ?_ ?_ <;> first
    | (show _ * _ + 1 * _ = t.val * 4000 + p.val; simp only [a0, b0, c0, e0, f0, Nat.one_mul] <;> rfl)
    | (show _ * _ + 1 * _ = q.val; simp only [a1, b1, c1, e1, f1, Nat.zero_mul, Nat.zero_add, Nat.one_mul] <;> rfl)

theorem emb0_3 (t : Fin cfg0.N) (k : Fin 3) (q : Fin 32) :
    (((cfg0.win 3).blk t).view.emb (ix2 k q) : S3x32.Idx) = ix2 k q := by
  obtain ⟨-, -, -, -, -, -, d0, d1, -⟩ := idx_facts0 t
  refine Shape.idx_ext₂ ?_ ?_ <;>
    (show _ * _ + 1 * _ = _; simp only [d0, d1, Nat.zero_mul, Nat.zero_add, Nat.one_mul] <;> rfl)

def pt0 (r : Nat) (hr : r < 2000000) : Fin cfg0.N :=
  ⟨r / 4000, by show r / 4000 < grid0.N; rw [N_0]; omega⟩

-- Every element lies in the block of the point its row belongs to.
theorem covered0 :
    (∀ i : S2000000x3.Idx, ∃ t : Fin cfg0.N, (cfg0.win 4).flush t = true ∧ i ∈ ((cfg0.win 4).blk t).view.set)
    ∧ (∀ i : S2000000x32.Idx, ∃ t : Fin cfg0.N, (cfg0.win 5).flush t = true ∧ i ∈ ((cfg0.win 5).blk t).view.set) := by
  refine ⟨fun i => ⟨pt0 (i 0).val (i 0).isLt, flush0_4 _, ?_⟩, fun i => ⟨pt0 (i 0).val (i 0).isLt, flush0_5 _, ?_⟩⟩ <;>
    (obtain ⟨-, -, -, -, -, -, -, -, e0, e1, f0, f1⟩ := idx_facts0 (pt0 (i 0).val (i 0).isLt)
     have ev : (pt0 (i 0).val (i 0).isLt).val = (i 0).val / 4000 := rfl
     have h1 := (i 1).isLt
     first | show i ∈ ((View.whole main_v54_0).slice (win0_4.rect (pt0 (i 0).val (i 0).isLt))).set | show i ∈ ((View.whole main_v54_1).slice (win0_5.rect (pt0 (i 0).val (i 0).isLt))).set
     rw [View.set_slice_whole, Rect.mem_set_unit]
     refine Fin.forall_fin_two.mpr ⟨?_, ?_⟩
     · show _ * 4000 ≤ (i 0).val ∧ (i 0).val < _ * 4000 + 4000; simp only [e0, f0, ev]; omega
     · show _ * _ ≤ (i 1).val ∧ (i 1).val < _ * _ + _; simp only [e1, f1, Nat.zero_mul, Nat.zero_add]; exact ⟨Nat.zero_le _, h1⟩)

-- An input's block reads its array at the block's rows.
theorem blk0 (c : Dev nD) (t : Fin cfg0.N) (p : Fin 4000) (q : Fin 3) :
    (iblk0 V c 0 t : Vec Ideal S4000x3 .f32) (ix2 p q) = X53 V c (ix2 (row0 t p) q)
    ∧ (iblk0 V c 1 t : Vec Ideal S4000x3 .f32) (ix2 p q) = X24 V c (ix2 (row0 t p) q)
    ∧ (iblk0 V c 2 t : Vec Ideal S4000x3 .f32) (ix2 p q) = X49 V c (ix2 (row0 t p) q) := by
  obtain ⟨h0, h1, h2, -⟩ := emb0 t p
  unfold iblk0
  rw [View.read_apply, View.read_apply, View.read_apply]
  exact ⟨congrArg (V c main_v53) (h0 q), congrArg (V c main_v24) (h1 q), congrArg (V c main_v49) (h2 q)⟩

theorem blk0_3_apply (c : Dev nD) (t : Fin cfg0.N) (k : Fin 3) (q : Fin 32) :
    (iblk0 V c 3 t : Vec Ideal S3x32 .f32) (ix2 k q) = X9 V c (ix2 k q) := by
  unfold iblk0
  rw [View.read_apply]
  show V c main_arg9 (((cfg0.win 3).blk t).view.emb (ix2 k q)) = V c main_arg9 (ix2 k q)
  rw [emb0_3]

theorem flushed0_4_eq (c : Dev nD) (t : Fin cfg0.N) :
    (dat0 (F := Ideal) V c).flushed 4 t
      = ((cfg0.win 4).blk t).view.read (Elt Ideal) (G0_4 (X53 V c) (X24 V c) (X49 V c)) := by
  show (cfg0.win 4).cut (grid0.coords t) ((dat0 (F := Ideal) V c).after 4 t) = _
  rw [after0_4]
  unfold out0_4
  rw [View.canon_unit_zero zeros0]
  simp only [View.ld_unit_zero (S := S4000x3) zeros0]
  funext j
  obtain ⟨p, q, rfl⟩ : ∃ (p : Fin 4000) (q : Fin 3), j = ix2 p q := ⟨j 0, j 1, eq_ix2 (n0 := 4000) (n1 := 3) j⟩
  show k0_pay1 (iblk0 V c 0 t) (iblk0 V c 1 t) (iblk0 V c 2 t) (ix2 p q)
    = G0_4 (X53 V c) (X24 V c) (X49 V c) (((cfg0.win 4).blk t).view.emb (ix2 p q))
  rw [(emb0 t p).2.2.2.1 q]
  refine (pay0_1_apply (iblk0 V c 0 t) (iblk0 V c 1 t) (iblk0 V c 2 t) p q).trans ?_
  obtain ⟨b0, b1, b2⟩ := blk0 V c t p q
  rw [b0, b1, b2]
  rfl

theorem flushed0_5_eq (c : Dev nD) (t : Fin cfg0.N) :
    (dat0 (F := Ideal) V c).flushed 5 t
      = ((cfg0.win 5).blk t).view.read (Elt Ideal) (G0_5 (X53 V c) (X24 V c) (X49 V c) (X9 V c)) := by
  show (cfg0.win 5).cut (grid0.coords t) ((dat0 (F := Ideal) V c).after 5 t) = _
  rw [after0_5]
  unfold out0_5
  rw [View.canon_unit_zero zeros0]
  simp only [View.ld_unit_zero (S := S4000x3) zeros0, View.ld_unit_zero (S := S3x32) zeros0]
  funext j
  obtain ⟨p, q, rfl⟩ : ∃ (p : Fin 4000) (q : Fin 32), j = ix2 p q := ⟨j 0, j 1, eq_ix2 (n0 := 4000) (n1 := 32) j⟩
  show k0_pay2 (iblk0 V c 0 t) (iblk0 V c 1 t) (iblk0 V c 2 t) (iblk0 V c 3 t) (ix2 p q)
    = G0_5 (X53 V c) (X24 V c) (X49 V c) (X9 V c) (((cfg0.win 5).blk t).view.emb (ix2 p q))
  rw [(emb0 t p).2.2.2.2 q]
  refine (pay0_2_apply (iblk0 V c 0 t) (iblk0 V c 1 t) (iblk0 V c 2 t) (iblk0 V c 3 t) p q).trans ?_
  refine Finset.sum_congr rfl fun k _ => ?_
  obtain ⟨b0, b1, b2⟩ := blk0 V c t p k
  rw [b0, b1, b2, blk0_3_apply V c t k q]
  rfl

theorem arr0_4 (c : Dev nD) :
    (dat0 (F := Ideal) V c).arrAt 4 cfg0.N = G0_4 (X53 V c) (X24 V c) (X49 V c) :=
  (dat0 (F := Ideal) V c).arrAt_eq_of_cover 4 (G0_4 (X53 V c) (X24 V c) (X49 V c)) (fun t _ => flushed0_4_eq V c t) covered0.1

theorem arr0_5 (c : Dev nD) :
    (dat0 (F := Ideal) V c).arrAt 5 cfg0.N = G0_5 (X53 V c) (X24 V c) (X49 V c) (X9 V c) :=
  (dat0 (F := Ideal) V c).arrAt_eq_of_cover 5 (G0_5 (X53 V c) (X24 V c) (X49 V c) (X9 V c)) (fun t _ => flushed0_5_eq V c t) covered0.2

theorem final0_4 (c : Dev nD) (p : Fin 2000000) (q : Fin 3) :
    (dat0 (F := Ideal) V c).arrAt 4 cfg0.N (ix2 p q)
      = X53 V c (ix2 p q) + Ideal.div (X24 V c (ix2 p q)) (X49 V c (ix2 p q)) := by
  rw [arr0_4]; rfl

theorem final0_5 (c : Dev nD) (p : Fin 2000000) (q : Fin 32) :
    (dat0 (F := Ideal) V c).arrAt 5 cfg0.N (ix2 p q)
      = ∑ k : Fin 3, (X53 V c (ix2 p k) + Ideal.div (X24 V c (ix2 p k)) (X49 V c (ix2 p k))) * X9 V c (ix2 k q) := by
  rw [arr0_5]; rfl

end Cert.KernelIdeal.Hand

end
-- ==== Proof.Ideal.Val1.lean ====
import proofs.«422434_j9131100471786_3_alg».proof.Proof.Ideal.Region1
import proofs.«422434_j9131100471786_3_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem bcastCol1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem plain1 : Cert.Lib.PlainProduct.IsPlain dot_S4000x32_S32x32_S4000x32_1_0_0_1_n_n := ⟨rfl, rfl, rfl, rfl, rfl, rfl⟩

theorem pay1_apply (x0 x1 : Vec Ideal S4000x32 .f32) (x2 : Vec Ideal S4000x1 .f32) (x3 : Vec Ideal S1x32 .f32)
    (x4 : Vec Ideal S32x32 .f32) (p : Fin 4000) (q : Fin 32) :
    k1_pay1 x0 x1 x2 x3 x4 (ix2 p q)
      = ∑ k : Fin 32, max (x0 (ix2 p k) + x1 (ix2 p k) * x2 (ix2 p 0) + x3 (ix2 0 k)) (Ideal.ofBits .f32 0x00000000#32) * x4 (ix2 k q) := by
  unfold k1_pay1
  refine (Cert.Lib.PlainProduct.matmul_zero_apply plain1 none _ _ p q).trans ?_
  refine Finset.sum_congr rfl fun k _ => ?_
  simp only [shapeCast_self]
  have e2 : broadcastTo S4000x32 x2 broadcasts_S4000x1_S4000x32 (ix2 p k) = x2 (ix2 p 0) :=
    bcastCol1_apply x2 _ p k
  have e3 : broadcastTo S4000x32 x3 broadcasts_S1x32_S4000x32 (ix2 p k) = x3 (ix2 0 k) :=
    broadcastTo_1b_ab_apply x3 _ p k
  show max (x0 (ix2 p k) + x1 (ix2 p k) * broadcastTo S4000x32 x2 broadcasts_S4000x1_S4000x32 (ix2 p k)
      + broadcastTo S4000x32 x3 broadcasts_S1x32_S4000x32 (ix2 p k)) (Ideal.ofBits .f32 0x00000000#32) * x4 (ix2 k q) = _
  rw [e2, e3]

abbrev X100 (c : Dev nD) : S2000000x32.Idx → EReal := V c main_v100

abbrev X54 (c : Dev nD) : S2000000x32.Idx → EReal := V c main_v54_1

abbrev X87 (c : Dev nD) : S2000000x1.Idx → EReal := V c main_v87

abbrev X101 (c : Dev nD) : S1x32.Idx → EReal := V c main_v101

abbrev X11 (c : Dev nD) : S32x32.Idx → EReal := V c main_arg11

def res1 (a0 a1 : S2000000x32.Idx → EReal) (a2 : S2000000x1.Idx → EReal) (a3 : S1x32.Idx → EReal) (a4 : S32x32.Idx → EReal)
    (p : Fin 2000000) (q : Fin 32) : EReal :=
  ∑ k : Fin 32, max (a0 (ix2 p k) + a1 (ix2 p k) * a2 (ix2 p 0) + a3 (ix2 0 k)) (Ideal.ofBits .f32 0x00000000#32) * a4 (ix2 k q)

def G1 (a0 a1 : S2000000x32.Idx → EReal) (a2 : S2000000x1.Idx → EReal) (a3 : S1x32.Idx → EReal) (a4 : S32x32.Idx → EReal) :
    S2000000x32.Idx → EReal :=
  fun i => res1 a0 a1 a2 a3 a4 (i 0) (i 1)

theorem pay1_eq_res1 (x0 x1 : Vec Ideal S4000x32 .f32) (x2 : Vec Ideal S4000x1 .f32) (x3 : Vec Ideal S1x32 .f32)
    (x4 : Vec Ideal S32x32 .f32) (a0 a1 : S2000000x32.Idx → EReal) (a2 : S2000000x1.Idx → EReal) (a3 : S1x32.Idx → EReal)
    (a4 : S32x32.Idx → EReal) (p : Fin 4000) (q : Fin 32) (P : Fin 2000000)
    (h0 : ∀ k : Fin 32, x0 (ix2 p k) = a0 (ix2 P k)) (h1 : ∀ k : Fin 32, x1 (ix2 p k) = a1 (ix2 P k))
    (h2 : x2 (ix2 p 0) = a2 (ix2 P 0)) (h3 : ∀ k : Fin 32, x3 (ix2 0 k) = a3 (ix2 0 k))
    (h4 : ∀ k : Fin 32, x4 (ix2 k q) = a4 (ix2 k q)) :
    k1_pay1 x0 x1 x2 x3 x4 (ix2 p q) = res1 a0 a1 a2 a3 a4 P q := by
  rw [pay1_apply]
  unfold res1
  refine Finset.sum_congr rfl fun k _ => ?_
  rw [h0 k, h1 k, h2, h3 k, h4 k]

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

-- An input's block reads its array at the block's index times the block's size plus the coordinate inside the block.
theorem iblk1_apply (c : Dev nD) (t : Fin cfg1.N) (p : Fin 4000) (P : Fin 2000000) (hP : P.val = t.val * 4000 + p.val) :
    (∀ k, (iblk1 (F := Ideal) V c 0 t : Vec Ideal S4000x32 .f32) (ix2 p k) = X100 V c (ix2 P k))
    ∧ (∀ k, (iblk1 (F := Ideal) V c 1 t : Vec Ideal S4000x32 .f32) (ix2 p k) = X54 V c (ix2 P k))
    ∧ (iblk1 (F := Ideal) V c 2 t : Vec Ideal S4000x1 .f32) (ix2 p 0) = X87 V c (ix2 P 0)
    ∧ (∀ k, (iblk1 (F := Ideal) V c 3 t : Vec Ideal S1x32 .f32) (ix2 0 k) = X101 V c (ix2 0 k))
    ∧ (∀ k q, (iblk1 (F := Ideal) V c 4 t : Vec Ideal S32x32 .f32) (ix2 k q) = X11 V c (ix2 k q)) := by
  obtain ⟨a0, a1, b0, b1, c0, c1, d0, d1, e0, e1, -⟩ := idx_facts1 t
  unfold iblk1
  refine ⟨fun k => ?_, fun k => ?_, ?_, fun k => ?_, fun k q => ?_⟩ <;> rw [View.read_apply] <;>
    refine congrArg (V c _) (Shape.idx_ext₂ ?_ ?_) <;>
    (show _ * _ + 1 * _ = _
     simp only [a0, a1, b0, b1, c0, c1, d0, d1, e0, e1, Nat.one_mul, Nat.zero_mul, Nat.zero_add] <;> first | rfl | exact hP.symm)

theorem G1_apply (a0 a1 : S2000000x32.Idx → EReal) (a2 : S2000000x1.Idx → EReal) (a3 : S1x32.Idx → EReal) (a4 : S32x32.Idx → EReal)
    (i : S2000000x32.Idx) (P : Fin 2000000) (q : Fin 32) (h0 : (i 0).val = P.val) (h1 : (i 1).val = q.val) :
    G1 a0 a1 a2 a3 a4 i = res1 a0 a1 a2 a3 a4 P q := by
  have e : i = ix2 P q := funext fun a => Fin.ext (match a with | ⟨0, _⟩ => h0 | ⟨1, _⟩ => h1)
  rw [e]
  rfl

theorem flushed1_5_eq (c : Dev nD) (t : Fin cfg1.N) :
    (dat1 (F := Ideal) V c).flushed 5 t
      = ((cfg1.win 5).blk t).view.read (Elt Ideal) (G1 (X100 V c) (X54 V c) (X87 V c) (X101 V c) (X11 V c)) := by
  show (cfg1.win 5).cut (grid1.coords t) ((dat1 (F := Ideal) V c).after 5 t) = _
  rw [after1_5]
  unfold out1_5
  rw [View.canon_unit_zero hz1]
  simp only [View.ld_unit_zero (S := S4000x32) hz1, View.ld_unit_zero (S := S4000x1) hz1,
    View.ld_unit_zero (S := S1x32) hz1, View.ld_unit_zero (S := S32x32) hz1]
  obtain ⟨-, -, -, -, -, -, -, -, -, -, e0, e1⟩ := idx_facts1 t
  have hN : cfg1.N = 500 := N_1
  have ht : t.val < 500 := hN ▸ t.isLt
  refine funext fun (j : S4000x32.Idx) => ?_
  obtain ⟨p, q, rfl⟩ : ∃ (p : Fin 4000) (q : Fin 32), j = ix2 p q := ⟨j 0, j 1, eq_ix2 j⟩
  have hp : p.val < 4000 := p.isLt
  rw [View.read_apply]
  have hb := iblk1_apply V c t p ⟨t.val * 4000 + p.val, by omega⟩ rfl
  show k1_pay1 (F := Ideal) _ _ _ _ _ (ix2 p q) = G1 _ _ _ _ _ (((cfg1.win 5).blk t).view.emb (ix2 p q))
  refine (pay1_eq_res1 _ _ _ _ _ _ _ _ _ _ p q _ hb.1 hb.2.1 hb.2.2.1 hb.2.2.2.1 fun k => hb.2.2.2.2 k q).trans ?_
  refine (G1_apply _ _ _ _ _ _ _ q ?_ ?_).symm
  · show win1_5.index t (0 : Fin 2) * 4000 + 1 * p.val = t.val * 4000 + p.val; rw [e0]; omega
  · show win1_5.index t (1 : Fin 2) * 32 + 1 * q.val = q.val; rw [e1]; omega

theorem covered1_5 (i : S2000000x32.Idx) :
    ∃ t : Fin cfg1.N, (cfg1.win 5).flush t = true ∧ i ∈ ((cfg1.win 5).blk t).view.set := by
  have hi0 : (i 0).val < 2000000 := (i 0).isLt
  have hi1 : (i 1).val < 32 := (i 1).isLt
  have hN : cfg1.N = 500 := N_1
  have ht : (i 0).val / 4000 < cfg1.N := by rw [hN]; omega
  obtain ⟨-, -, -, -, -, -, -, -, -, -, e0, e1⟩ := idx_facts1 ⟨(i 0).val / 4000, ht⟩
  refine ⟨⟨(i 0).val / 4000, ht⟩, flush1_5 _, ?_⟩
  show i ∈ ((View.whole main_v102).slice (win1_5.rect ⟨(i 0).val / 4000, ht⟩)).set
  rw [View.set_slice_whole, Rect.mem_set_unit]
  refine Fin.forall_fin_two.mpr ⟨?_, ?_⟩
  · show _ * 4000 ≤ (i 0).val ∧ (i 0).val < _ * 4000 + 4000; simp only [e0, Fin.val_mk]; omega
  · show _ * 32 ≤ (i 1).val ∧ (i 1).val < _ * 32 + 32; simp only [e1]; omega

theorem arr1_5 (c : Dev nD) :
    (dat1 (F := Ideal) V c).arrAt 5 cfg1.N = G1 (X100 V c) (X54 V c) (X87 V c) (X101 V c) (X11 V c) :=
  (dat1 (F := Ideal) V c).arrAt_eq_of_cover 5 (G1 (X100 V c) (X54 V c) (X87 V c) (X101 V c) (X11 V c))
    (fun t _ => flushed1_5_eq V c t) covered1_5

theorem final1_5 (c : Dev nD) (p : Fin 2000000) (q : Fin 32) :
    (dat1 (F := Ideal) V c).arrAt 5 cfg1.N (ix2 p q)
      = ∑ k : Fin 32, max (X100 V c (ix2 p k) + X54 V c (ix2 p k) * X87 V c (ix2 p 0) + X101 V c (ix2 0 k))
          (Ideal.ofBits .f32 0x00000000#32) * X11 V c (ix2 k q) :=
  (congrFun (arr1_5 V c) (ix2 p q)).trans rfl

end Cert.KernelIdeal.Hand

end
-- ==== Proof.Ideal.Val2.lean ====
import proofs.«422434_j9131100471786_3_alg».proof.Proof.Ideal.Region2
import proofs.«422434_j9131100471786_3_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

namespace Val2

abbrev X115 (c : Dev nD) : S2000000x32.Idx → EReal := V c main_v115

abbrev X102 (c : Dev nD) : S2000000x32.Idx → EReal := V c main_v102

abbrev X87 (c : Dev nD) : S2000000x1.Idx → EReal := V c main_v87

abbrev X116 (c : Dev nD) : S1x32.Idx → EReal := V c main_v116

abbrev X13 (c : Dev nD) : S32x3.Idx → EReal := V c main_arg13

abbrev X117 (c : Dev nD) : S1x3.Idx → EReal := V c main_v117

abbrev X54 (c : Dev nD) : S2000000x3.Idx → EReal := V c main_v54_0

def delta2 (c : Dev nD) (p : Fin 2000000) (q : Fin 3) : EReal :=
  (∑ k : Fin 32, max (X115 V c (ix2 p k) + X102 V c (ix2 p k) * X87 V c (ix2 p (0 : Fin 1)) + X116 V c (ix2 (0 : Fin 1) k)) (Ideal.ofBits .f32 0x00000000#32) * X13 V c (ix2 k q))
    + X117 V c (ix2 (0 : Fin 1) q)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem head_plain : Cert.Lib.PlainProduct.IsPlain dot_S4000x32_S32x3_S4000x3_1_0_0_1_n_n := ⟨rfl, rfl, rfl, rfl, rfl, rfl⟩

theorem pay1_apply (x0 x1 : Vec Ideal S4000x32 .f32) (x2 : Vec Ideal S4000x1 .f32) (x3 : Vec Ideal S1x32 .f32)
    (x4 : Vec Ideal S32x3 .f32) (x5 : Vec Ideal S1x3 .f32) (p : Fin 4000) (q : Fin 3) :
    k2_pay1 x0 x1 x2 x3 x4 x5 (ix2 p q)
      = (∑ k : Fin 32, max ((x0 (ix2 p k) : EReal) + (x1 (ix2 p k) : EReal) * (x2 (ix2 p (0 : Fin 1)) : EReal) + (x3 (ix2 (0 : Fin 1) k) : EReal)) (Ideal.ofBits .f32 0x00000000#32) * (x4 (ix2 k q) : EReal))
        + (x5 (ix2 (0 : Fin 1) q) : EReal) := by
  unfold k2_pay1
  simp only [shapeCast_self]
  rw [addf_apply]
  show FloatOps.matmul dot_S4000x32_S32x3_S4000x3_1_0_0_1_n_n none _ _ (constant S4000x3 .f32 0x00000000#32) (ix2 p q) + _ = _
  rw [Cert.Lib.PlainProduct.matmul_zero_apply head_plain, broadcastTo_1b_ab_apply]
  congr 1
  refine Finset.sum_congr rfl fun k _ => ?_
  rw [truncf_apply, truncf_apply, maximumf_apply, addf_apply, addf_apply, mulf_apply, broadcastTo_a1_ab_apply, broadcastTo_1b_ab_apply, broadcast_apply]
  rfl

theorem pay2_apply (x0 x1 : Vec Ideal S4000x32 .f32) (x2 : Vec Ideal S4000x1 .f32) (x3 : Vec Ideal S1x32 .f32)
    (x4 : Vec Ideal S32x3 .f32) (x5 : Vec Ideal S1x3 .f32) (x6 : Vec Ideal S4000x3 .f32) (p : Fin 4000) (q : Fin 3) :
    k2_pay2 x0 x1 x2 x3 x4 x5 x6 (ix2 p q) = (x6 (ix2 p q) : EReal) - k2_pay1 x0 x1 x2 x3 x4 x5 (ix2 p q) := by
  unfold k2_pay2
  simp only [shapeCast_self]
  rw [subf_apply]

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

abbrev B2_0 (c : Dev nD) (t : Fin cfg2.N) : Vec Ideal S4000x32 .f32 := iblk2 V c 0 t
abbrev B2_1 (c : Dev nD) (t : Fin cfg2.N) : Vec Ideal S4000x32 .f32 := iblk2 V c 1 t
abbrev B2_2 (c : Dev nD) (t : Fin cfg2.N) : Vec Ideal S4000x1 .f32 := iblk2 V c 2 t
abbrev B2_3 (c : Dev nD) (t : Fin cfg2.N) : Vec Ideal S1x32 .f32 := iblk2 V c 3 t
abbrev B2_4 (c : Dev nD) (t : Fin cfg2.N) : Vec Ideal S32x3 .f32 := iblk2 V c 4 t
abbrev B2_5 (c : Dev nD) (t : Fin cfg2.N) : Vec Ideal S1x3 .f32 := iblk2 V c 5 t
abbrev B2_6 (c : Dev nD) (t : Fin cfg2.N) : Vec Ideal S4000x3 .f32 := iblk2 V c 6 t

-- An input's block reads its array at the block's index times the block's size plus the coordinate inside the block.
theorem blk2_apply (c : Dev nD) (t : Fin cfg2.N) (p : Fin 4000) (r : Fin 2000000) (hr : r.val = t.val * 4000 + p.val) :
    (∀ k, B2_0 V c t (ix2 p k) = X115 V c (ix2 r k)) ∧ (∀ k, B2_1 V c t (ix2 p k) = X102 V c (ix2 r k))
    ∧ (∀ z, B2_2 V c t (ix2 p z) = X87 V c (ix2 r z)) ∧ (∀ z k, B2_3 V c t (ix2 z k) = X116 V c (ix2 z k))
    ∧ (∀ k q, B2_4 V c t (ix2 k q) = X13 V c (ix2 k q)) ∧ (∀ z q, B2_5 V c t (ix2 z q) = X117 V c (ix2 z q))
    ∧ (∀ q, B2_6 V c t (ix2 p q) = X54 V c (ix2 r q)) := by
  obtain ⟨a0, a1, b0, b1, c0, c1, d0, d1, e0, e1, f0, f1, g0, g1, -⟩ := idx_facts2 t
  refine ⟨fun k => ?_, fun k => ?_, fun z => ?_, fun z k => ?_, fun k q => ?_, fun z q => ?_, fun q => ?_⟩ <;>
    refine congrArg (V c _) (Shape.idx_ext₂ ?_ ?_) <;>
    (show _ * _ + 1 * _ = _
     simp only [a0, a1, b0, b1, c0, c1, d0, d1, e0, e1, f0, f1, g0, g1, Nat.one_mul, Nat.zero_mul, Nat.zero_add] <;> first | rfl | exact hr.symm)

theorem pay1_blocks (c : Dev nD) (t : Fin cfg2.N) (p : Fin 4000) (q : Fin 3) (r : Fin 2000000) (hr : r.val = t.val * 4000 + p.val) :
    k2_pay1 (B2_0 V c t) (B2_1 V c t) (B2_2 V c t) (B2_3 V c t) (B2_4 V c t) (B2_5 V c t) (ix2 p q) = delta2 V c r q := by
  obtain ⟨h0, h1, h2, h3, h4, h5, -⟩ := blk2_apply V c t p r hr
  rw [pay1_apply, h2, h5]
  unfold delta2
  refine congrArg (· + X117 V c (ix2 (0 : Fin 1) q)) (Finset.sum_congr rfl fun k _ => ?_)
  rw [h0, h1, h3, h4]

theorem pay2_blocks (c : Dev nD) (t : Fin cfg2.N) (p : Fin 4000) (q : Fin 3) (r : Fin 2000000) (hr : r.val = t.val * 4000 + p.val) :
    k2_pay2 (B2_0 V c t) (B2_1 V c t) (B2_2 V c t) (B2_3 V c t) (B2_4 V c t) (B2_5 V c t) (B2_6 V c t) (ix2 p q)
      = X54 V c (ix2 r q) - delta2 V c r q := by
  rw [pay2_apply, pay1_blocks V c t p q r hr, (blk2_apply V c t p r hr).2.2.2.2.2.2 q]

theorem hz2 : (![0, 0] : Fin 2 → Nat) = fun _ => 0 := funext fun a => by fin_cases a <;> rfl

theorem lt_500 (t : Fin cfg2.N) : t.val < 500 := lt_of_lt_of_eq t.isLt N_2

abbrev G2_7 (c : Dev nD) : S2000000x3.Idx → EReal := fun i => delta2 V c (i 0) (i 1)

abbrev G2_8 (c : Dev nD) : S2000000x3.Idx → EReal := fun i => X54 V c (ix2 (i 0) (i 1)) - delta2 V c (i 0) (i 1)

-- A result's block reads any array at the block's index times the block's size plus the coordinate inside the block.
theorem read_blk2 (G : S2000000x3.Idx → EReal) (t : Fin cfg2.N) :
    (∀ (j : ((cfg2.win 7).xblock (cfg2.grid.coords t)).Idx) (r : Fin 2000000) (q : Fin 3),
        r.val = t.val * 4000 + (j 0).val → q.val = (j 1).val → ((cfg2.win 7).blk t).view.read (Elt Ideal) G j = G (ix2 r q))
    ∧ (∀ (j : ((cfg2.win 8).xblock (cfg2.grid.coords t)).Idx) (r : Fin 2000000) (q : Fin 3),
        r.val = t.val * 4000 + (j 0).val → q.val = (j 1).val → ((cfg2.win 8).blk t).view.read (Elt Ideal) G j = G (ix2 r q)) := by
  obtain ⟨-, -, -, -, -, -, -, -, -, -, -, -, -, -, h0, h1, k0, k1⟩ := idx_facts2 t
  refine ⟨fun j r q hr hq => ?_, fun j r q hr hq => ?_⟩ <;> refine congrArg G (Shape.idx_ext₂ ?_ ?_) <;>
    (show _ * _ + 1 * _ = _
     simp only [h0, h1, k0, k1, Nat.one_mul, Nat.zero_mul, Nat.zero_add] <;> first | exact hr.symm | exact hq.symm)

theorem flushed2_7_eq (c : Dev nD) (t : Fin cfg2.N) :
    (dat2 (F := Ideal) V c).flushed 7 t = ((cfg2.win 7).blk t).view.read (Elt Ideal) (G2_7 V c) := by
  show (cfg2.win 7).cut (grid2.coords t) ((dat2 (F := Ideal) V c).after 7 t) = _
  rw [after2_7]
  unfold out2_7
  rw [View.canon_unit_zero hz2]
  simp only [View.ld_unit_zero (S := S4000x32) hz2, View.ld_unit_zero (S := S4000x1) hz2, View.ld_unit_zero (S := S1x32) hz2, View.ld_unit_zero (S := S32x3) hz2, View.ld_unit_zero (S := S1x3) hz2]
  funext j
  have ht := lt_500 t
  have hj0 : (j 0).val < 4000 := (j 0).isLt
  have hj1 : (j 1).val < 3 := (j 1).isLt
  have e1 : (cfg2.win 7).xinj (grid2.coords t) j = ix2 (⟨(j 0).val, hj0⟩ : Fin 4000) (⟨(j 1).val, hj1⟩ : Fin 3) :=
    funext fun a => by match a with | ⟨0, _⟩ => rfl | ⟨1, _⟩ => rfl
  refine (congrArg (k2_pay1 (B2_0 V c t) (B2_1 V c t) (B2_2 V c t) (B2_3 V c t) (B2_4 V c t) (B2_5 V c t)) e1).trans ?_
  rw [pay1_blocks V c t ⟨(j 0).val, hj0⟩ ⟨(j 1).val, hj1⟩ ⟨t.val * 4000 + (j 0).val, by omega⟩ rfl,
    (read_blk2 (G2_7 V c) t).1 j ⟨t.val * 4000 + (j 0).val, by omega⟩ ⟨(j 1).val, hj1⟩ rfl rfl]

theorem flushed2_8_eq (c : Dev nD) (t : Fin cfg2.N) :
    (dat2 (F := Ideal) V c).flushed 8 t = ((cfg2.win 8).blk t).view.read (Elt Ideal) (G2_8 V c) := by
  show (cfg2.win 8).cut (grid2.coords t) ((dat2 (F := Ideal) V c).after 8 t) = _
  rw [after2_8]
  unfold out2_8
  rw [View.canon_unit_zero hz2]
  simp only [View.ld_unit_zero (S := S4000x32) hz2, View.ld_unit_zero (S := S4000x1) hz2, View.ld_unit_zero (S := S1x32) hz2, View.ld_unit_zero (S := S32x3) hz2, View.ld_unit_zero (S := S1x3) hz2, View.ld_unit_zero (S := S4000x3) hz2]
  funext j
  have ht := lt_500 t
  have hj0 : (j 0).val < 4000 := (j 0).isLt
  have hj1 : (j 1).val < 3 := (j 1).isLt
  have e1 : (cfg2.win 8).xinj (grid2.coords t) j = ix2 (⟨(j 0).val, hj0⟩ : Fin 4000) (⟨(j 1).val, hj1⟩ : Fin 3) :=
    funext fun a => by match a with | ⟨0, _⟩ => rfl | ⟨1, _⟩ => rfl
  refine (congrArg (k2_pay2 (B2_0 V c t) (B2_1 V c t) (B2_2 V c t) (B2_3 V c t) (B2_4 V c t) (B2_5 V c t) (B2_6 V c t)) e1).trans ?_
  rw [pay2_blocks V c t ⟨(j 0).val, hj0⟩ ⟨(j 1).val, hj1⟩ ⟨t.val * 4000 + (j 0).val, by omega⟩ rfl,
    (read_blk2 (G2_8 V c) t).2 j ⟨t.val * 4000 + (j 0).val, by omega⟩ ⟨(j 1).val, hj1⟩ rfl rfl]

-- Every element lies in the block of the point its row belongs to.
theorem cover2 (i : S2000000x3.Idx) :
    (∃ t : Fin cfg2.N, (cfg2.win 7).flush t = true ∧ i ∈ ((cfg2.win 7).blk t).view.set)
    ∧ (∃ t : Fin cfg2.N, (cfg2.win 8).flush t = true ∧ i ∈ ((cfg2.win 8).blk t).view.set) := by
  have hi0 : (i 0).val < 2000000 := (i 0).isLt
  have hi1 : (i 1).val < 3 := (i 1).isLt
  have hN : (i 0).val / 4000 < cfg2.N := lt_of_lt_of_eq (by omega : (i 0).val / 4000 < 500) N_2.symm
  obtain ⟨-, -, -, -, -, -, -, -, -, -, -, -, -, -, h0, h1, k0, k1⟩ := idx_facts2 ⟨(i 0).val / 4000, hN⟩
  refine ⟨⟨⟨(i 0).val / 4000, hN⟩, flush2_7 _, ?_⟩, ⟨⟨(i 0).val / 4000, hN⟩, flush2_8 _, ?_⟩⟩ <;>
    (first | show i ∈ ((View.whole main_v118_0).slice (win2_7.rect ⟨(i 0).val / 4000, hN⟩)).set | show i ∈ ((View.whole main_v118_1).slice (win2_8.rect ⟨(i 0).val / 4000, hN⟩)).set
     rw [View.set_slice_whole, Rect.mem_set_unit]
     refine Fin.forall_fin_two.mpr ⟨?_, ?_⟩
     · show _ * 4000 ≤ (i 0).val ∧ (i 0).val < _ * 4000 + 4000; simp only [h0, k0, Fin.val_mk]; omega
     · show _ * 3 ≤ (i 1).val ∧ (i 1).val < _ * 3 + 3; simp only [h1, k1]; omega)

theorem final2_7 (c : Dev nD) (p : Fin 2000000) (q : Fin 3) :
    (dat2 (F := Ideal) V c).arrAt 7 cfg2.N (ix2 p q) = delta2 V c p q :=
  congrFun ((dat2 (F := Ideal) V c).arrAt_eq_of_cover 7 (G2_7 V c) (fun t _ => flushed2_7_eq V c t) fun i => (cover2 i).1) (ix2 p q)

theorem final2_8 (c : Dev nD) (p : Fin 2000000) (q : Fin 3) :
    (dat2 (F := Ideal) V c).arrAt 8 cfg2.N (ix2 p q) = X54 V c (ix2 p q) - delta2 V c p q :=
  congrFun ((dat2 (F := Ideal) V c).arrAt_eq_of_cover 8 (G2_8 V c) (fun t _ => flushed2_8_eq V c t) fun i => (cover2 i).2) (ix2 p q)

end Val2

end Cert.KernelIdeal.Hand

end
-- ==== Proof.Ideal.Val3.lean ====
import proofs.«422434_j9131100471786_3_alg».proof.Proof.Ideal.Region3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

theorem blk3_3_facts : ∀ t : Fin cfg3.N, win3_3.index t (0 : Fin 1) = t.val
    ∧ win3_3.xsize (grid3.coords t) (0 : Fin 1) = if t.val = 7 then 82496 else 131072 :=
  (by decide +kernel : ∀ t : Fin grid3.N, _)

theorem mem_blk3_3 (t : Fin cfg3.N) (i : S1000000.Idx) :
    i ∈ ((cfg3.win 3).blk t).view.set ↔ win3_3.index t (0 : Fin 1) * 131072 ≤ (i 0).val
      ∧ (i 0).val < win3_3.index t (0 : Fin 1) * 131072 + win3_3.xsize (grid3.coords t) (0 : Fin 1) := by
  show i ∈ ((View.whole main_v147).slice (win3_3.rect t)).set ↔ _
  rw [View.set_slice_whole, Rect.mem_set_unit]
  exact Fin.forall_fin_one

theorem covered3_3 (i : S1000000.Idx) :
    ∃ t : Fin cfg3.N, (cfg3.win 3).flush t = true ∧ i ∈ ((cfg3.win 3).blk t).view.set := by
  have hi : (i 0).val < 1000000 := (i 0).isLt
  have hN : cfg3.N = 8 := N_3
  refine ⟨⟨(i 0).val / 131072, by rw [hN]; omega⟩, flush3_3 _, ?_⟩
  rw [mem_blk3_3]
  obtain ⟨e0, e1⟩ := blk3_3_facts ⟨(i 0).val / 131072, by rw [hN]; omega⟩
  rw [e0, e1]
  show (i 0).val / 131072 * 131072 ≤ (i 0).val ∧ (i 0).val < (i 0).val / 131072 * 131072 + if (i 0).val / 131072 = 7 then 82496 else 131072
  split <;> omega

theorem final3_3 (c : Dev nD) : (dat3 V c).arrAt 3 cfg3.N = res3 V c :=
  (dat3 V c).arrAt_eq_of_cover 3 (res3 V c) (fun t _ => (flushed3_3 V c t).trans (oblk3_eq_read V c t)) covered3_3

theorem final3_3_apply (c : Dev nD) (p : Fin 1000000) :
    (dat3 V c).arrAt 3 cfg3.N (ix1 p) = pay3 (V c main_arg0 (ix1 p)) (V c main_arg7 (ix1 p)) (V c main_v146 (ix1 p)) := by
  rw [final3_3]; rfl

end Cert.KernelIdeal.Hand

end
-- ==== Proof.Ideal.HostRead0.lean ====
import proofs.«422434_j9131100471786_3_alg».proof.Proof.Gen.KernelIdeal.Launch
import proofs.«422434_j9131100471786_3_alg».proof.Proof.RefRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.ReferenceIdeal.Read
open Idealize.ShloMosaic Idealize.ShloMosaic.TcCoe
open Idealize.ShloMosaic.ValueIdx

-- Column `q` of three one-column arrays laid side by side is piece `q`.
theorem stack3_apply {α : Type} {n : Nat} (a b c : (⟨2, ![n, 1]⟩ : Shape).Idx → α)
    (h : Shape.Concatenates ([(⟨⟨2, ![n, 1]⟩, a⟩ : (s : Shape) × (s.Idx → α)), ⟨⟨2, ![n, 1]⟩, b⟩, ⟨⟨2, ![n, 1]⟩, c⟩].map (·.1)) ⟨2, ![n, 3]⟩ 1)
    (p : Fin n) (q : Fin 3) :
    concatenate (⟨2, ![n, 3]⟩ : Shape) 1 [⟨⟨2, ![n, 1]⟩, a⟩, ⟨⟨2, ![n, 1]⟩, b⟩, ⟨⟨2, ![n, 1]⟩, c⟩] h (ix2 p q)
      = (match q with | ⟨0, _⟩ => a | ⟨1, _⟩ => b | ⟨2, _⟩ => c) (ix2 p (0 : Fin 1)) :=
  concatenate_apply_piece (1 : Fin 2) [⟨⟨2, ![n, 1]⟩, a⟩, ⟨⟨2, ![n, 1]⟩, b⟩, ⟨⟨2, ![n, 1]⟩, c⟩] h (ix2 p q) q.val q.isLt ⟨2, ![n, 1]⟩ _
    (by match q with | ⟨0, _⟩ | ⟨1, _⟩ | ⟨2, _⟩ => rfl) rfl q.val (by match q with | ⟨0, _⟩ | ⟨1, _⟩ | ⟨2, _⟩ => rfl) (ix2 p (0 : Fin 1))
    (fun d hd => match d with | ⟨0, _⟩ => rfl | ⟨1, _⟩ => absurd rfl hd) rfl

theorem bcastCol_apply {α : Type} {n : Nat} (hn : n ≠ 1) (v : (⟨1, ![n]⟩ : Shape).Idx → α)
    (h : (⟨1, ![n]⟩ : Shape).BroadcastsInDim ⟨2, ![n, 1]⟩ (![0] : Fin 1 → Fin 2)) (p : Fin n) :
    broadcastInDim (⟨2, ![n, 1]⟩ : Shape) ![0] h v (ix2 p (0 : Fin 1)) = v (ix1 p) :=
  broadcastInDim_apply _ h v _ (ix1 p) (fun a => match a with
    | ⟨0, _⟩ => by show p.val = if n = 1 then 0 else p.val; rw [if_neg hn])

def h0col {α : Type} (v : S2000000.Idx → α) : S2000000x1.Idx → α :=
  broadcastInDim S2000000x1 ![0] bcast_S2000000_S2000000x1_0 v

def h0stack {α : Type} (a b c : S2000000.Idx → α) : S2000000x3.Idx → α :=
  concatenate S2000000x3 1 [⟨S2000000x1, h0col a⟩, ⟨S2000000x1, h0col b⟩, ⟨S2000000x1, h0col c⟩]
    concatenates_S2000000x1_S2000000x1_S2000000x1_S2000000x3_d1

-- Three vectors set as columns side by side: entry `(p, q)` is vector `q` at `p`.
theorem h0stack_apply {α : Type} (a b c : S2000000.Idx → α) (p : Fin 2000000) (q : Fin 3) :
    h0stack a b c (ix2 p q) = (match q with | ⟨0, _⟩ => a | ⟨1, _⟩ => b | ⟨2, _⟩ => c) (ix1 p) := by
  refine (stack3_apply (h0col a) (h0col b) (h0col c) _ p q).trans ?_
  match q with
  | ⟨0, _⟩ | ⟨1, _⟩ | ⟨2, _⟩ => exact bcastCol_apply (by decide) _ _ p

theorem ref_v55_apply (x0 x7 : S1000000.Idx → EReal) (x1 x2 x3 : S2000000.Idx → EReal) (x4 x5 x6 : S2000000.Idx → BitVec 32)
    (p : Fin 2000000) (q : Fin 3) :
    Cert.ReferenceIdeal.Read.val_main_v55 (F := Ideal) x0 x1 x2 x3 x4 x5 x6 x7 (ix2 p q)
      = (match q with
          | ⟨0, _⟩ => Cert.ReferenceIdeal.Read.val_main_v15 (F := Ideal) x0 x1 x4 x7
          | ⟨1, _⟩ => Cert.ReferenceIdeal.Read.val_main_v31 (F := Ideal) x0 x2 x5 x7
          | ⟨2, _⟩ => Cert.ReferenceIdeal.Read.val_main_v47 (F := Ideal) x0 x3 x6 x7) (ix1 p) :=
  h0stack_apply _ _ _ p q

variable (W : Valuation τ sig (Elt Ideal))

set_option maxRecDepth 4096 in
theorem hostOps0_v53 :
    (StableHlo.after hostOps0 W (Proc.devRef .tc main_v53) : S2000000x3.Idx → EReal)
      = h0stack (W (Proc.devRef .tc main_arg1)) (W (Proc.devRef .tc main_arg2)) (W (Proc.devRef .tc main_arg3)) := by
  after_results; rfl

set_option maxRecDepth 4096 in
theorem hostOps0_v24 :
    (StableHlo.after hostOps0 W (Proc.devRef .tc main_v24) : S2000000x3.Idx → EReal)
      = h0stack (val_main_v6 (F := Ideal) (W (Proc.devRef .tc main_arg0)) (W (Proc.devRef .tc main_arg4)))
          (val_main_v22 (F := Ideal) (W (Proc.devRef .tc main_arg0)) (W (Proc.devRef .tc main_arg5)))
          (val_main_v38 (F := Ideal) (W (Proc.devRef .tc main_arg0)) (W (Proc.devRef .tc main_arg6))) := by
  after_results; rfl

set_option maxRecDepth 4096 in
theorem hostOps0_v49 :
    (StableHlo.after hostOps0 W (Proc.devRef .tc main_v49) : S2000000x3.Idx → EReal)
      = h0stack (val_main_v13 (F := Ideal) (W (Proc.devRef .tc main_arg4)) (W (Proc.devRef .tc main_arg7)))
          (val_main_v29 (F := Ideal) (W (Proc.devRef .tc main_arg5)) (W (Proc.devRef .tc main_arg7)))
          (val_main_v45 (F := Ideal) (W (Proc.devRef .tc main_arg6)) (W (Proc.devRef .tc main_arg7))) := by
  after_results; rfl

-- Stacking and then adding and dividing entrywise is adding and dividing column by column and then stacking.
theorem tnew_eq_ref
    (x0 x7 : S1000000.Idx → EReal) (x1 x2 x3 : S2000000.Idx → EReal) (x4 x5 x6 : S2000000.Idx → BitVec 32)
    (h0 : (W (Proc.devRef .tc main_arg0) : S1000000.Idx → EReal) = x0)
    (h1 : (W (Proc.devRef .tc main_arg1) : S2000000.Idx → EReal) = x1)
    (h2 : (W (Proc.devRef .tc main_arg2) : S2000000.Idx → EReal) = x2)
    (h3 : (W (Proc.devRef .tc main_arg3) : S2000000.Idx → EReal) = x3)
    (h4 : (W (Proc.devRef .tc main_arg4) : S2000000.Idx → BitVec 32) = x4)
    (h5 : (W (Proc.devRef .tc main_arg5) : S2000000.Idx → BitVec 32) = x5)
    (h6 : (W (Proc.devRef .tc main_arg6) : S2000000.Idx → BitVec 32) = x6)
    (h7 : (W (Proc.devRef .tc main_arg7) : S1000000.Idx → EReal) = x7)
    (T C N : S2000000x3.Idx → EReal)
    (hT : (StableHlo.after hostOps0 W (Proc.devRef .tc main_v53) : S2000000x3.Idx → EReal) = T)
    (hC : (StableHlo.after hostOps0 W (Proc.devRef .tc main_v24) : S2000000x3.Idx → EReal) = C)
    (hN : (StableHlo.after hostOps0 W (Proc.devRef .tc main_v49) : S2000000x3.Idx → EReal) = N)
    (p : Fin 2000000) (q : Fin 3) :
    T (ix2 p q) + Ideal.div (C (ix2 p q)) (N (ix2 p q))
      = Cert.ReferenceIdeal.Read.val_main_v55 (F := Ideal) x0 x1 x2 x3 x4 x5 x6 x7 (ix2 p q) := by
  subst hT hC hN
  rw [hostOps0_v53, hostOps0_v24, hostOps0_v49, h0, h1, h2, h3, h4, h5, h6, h7, h0stack_apply, h0stack_apply, h0stack_apply, ref_v55_apply]
  match q with
  | ⟨0, _⟩ => show _ = val_main_v15 (F := Ideal) x0 x1 x4 x7 (ix1 p); rw [val_main_v15_apply, val_main_v14_apply]; rfl
  | ⟨1, _⟩ => show _ = val_main_v31 (F := Ideal) x0 x2 x5 x7 (ix1 p); rw [val_main_v31_apply, val_main_v30_apply]; rfl
  | ⟨2, _⟩ => show _ = val_main_v47 (F := Ideal) x0 x3 x6 x7 (ix1 p); rw [val_main_v47_apply, val_main_v46_apply]; rfl

end Cert.KernelIdeal.Hand

end
-- ==== Proof.Ideal.HostRead1.lean ====
import proofs.«422434_j9131100471786_3_alg».proof.Proof.Gen.KernelIdeal.Launch
import proofs.«422434_j9131100471786_3_alg».proof.Proof.RefRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.ReferenceIdeal.Read
open Idealize.ShloMosaic Idealize.ShloMosaic.TcCoe
open Idealize.ShloMosaic.ValueIdx

variable (x0 : S1000000.Idx → EReal) (x1 x2 x3 : S2000000.Idx → EReal) (x4 x5 x6 : S2000000.Idx → BitVec 32)
  (x7 : S1000000.Idx → EReal) (x8 : S2x4000000.Idx → BitVec 32) (x9 : S3x32.Idx → EReal) (x10 : S32.Idx → EReal) (x11 : S32x32.Idx → EReal)
variable (W : Valuation τ sig (Elt Ideal))

-- The stretch and the reference do the same operations on the same edge list, so each array it leaves is the reference's stage.
theorem hostOps1_src_ref (h8 : (W (Proc.devRef .tc main_arg8) : S2x4000000.Idx → BitVec 32) = x8) :
    (StableHlo.after hostOps1 W (Proc.devRef .tc main_v56) : S4000000.Idx → BitVec 32)
      = val_main_v57 (F := Ideal) x8 := by
  subst h8; after_results; rfl

theorem hostOps1_dst_ref (h8 : (W (Proc.devRef .tc main_arg8) : S2x4000000.Idx → BitVec 32) = x8) :
    (StableHlo.after hostOps1 W (Proc.devRef .tc main_v58) : S4000000.Idx → BitVec 32)
      = val_main_v59 (F := Ideal) x8 := by
  subst h8; after_results; rfl

set_option maxHeartbeats 4000000 in
theorem hostOps1_norm_ref (h8 : (W (Proc.devRef .tc main_arg8) : S2x4000000.Idx → BitVec 32) = x8) :
    (StableHlo.after hostOps1 W (Proc.devRef .tc main_v85) : S4000000.Idx → EReal)
      = val_main_v87 (F := Ideal) x8 := by
  subst h8; after_results_simp; rfl

set_option maxHeartbeats 4000000 in
theorem hostOps1_dis2_ref (h8 : (W (Proc.devRef .tc main_arg8) : S2x4000000.Idx → BitVec 32) = x8) :
    (StableHlo.after hostOps1 W (Proc.devRef .tc main_v87) : S2000000x1.Idx → EReal)
      = val_main_v102 (F := Ideal) x8 := by
  subst h8; after_results_simp; rfl

set_option maxHeartbeats 4000000 in
theorem hostOps1_agg_ref
    (hxw : (W (Proc.devRef .tc main_v54_1) : S2000000x32.Idx → EReal) = val_main_v60 (F := Ideal) x0 x1 x2 x3 x4 x5 x6 x7 x9)
    (h8 : (W (Proc.devRef .tc main_arg8) : S2x4000000.Idx → BitVec 32) = x8) :
    (StableHlo.after hostOps1 W (Proc.devRef .tc main_v100) : S2000000x32.Idx → EReal)
      = val_main_v100 (F := Ideal) x0 x1 x2 x3 x4 x5 x6 x7 x8 x9 := by
  subst h8; after_results_simp; rw [hxw]; rfl

theorem hostOps1_xw : StableHlo.after hostOps1 W (Proc.devRef .tc main_v54_1) = W (Proc.devRef .tc main_v54_1) := by
  after_results

-- The stretch reshapes the bias to a row where the reference broadcasts it; both read the bias at the column.
theorem hostOps1_bias_apply (h10 : (W (Proc.devRef .tc main_arg10) : S32.Idx → EReal) = x10) (u : Fin 1) (k : Fin 32) :
    (StableHlo.after hostOps1 W (Proc.devRef .tc main_v101) : S1x32.Idx → EReal) (ix2 u k) = x10 (ix1 k) := by
  subst h10; after_results
  exact shapeCast_a_1a_apply _ shapeCasts_S32_S1x32 u k

-- The reference's rectified first layer at an entry: aggregate plus scaled own features plus bias, cut off below at zero.
theorem ref_layer1_apply (p : Fin 2000000) (k : Fin 32) :
    val_main_v109 (F := Ideal) x0 x1 x2 x3 x4 x5 x6 x7 x8 x9 x10 (ix2 p k)
      = max (val_main_v100 (F := Ideal) x0 x1 x2 x3 x4 x5 x6 x7 x8 x9 (ix2 p k)
            + val_main_v60 (F := Ideal) x0 x1 x2 x3 x4 x5 x6 x7 x9 (ix2 p k) * val_main_v102 (F := Ideal) x8 (ix2 p (0 : Fin 1))
            + x10 (ix1 k)) (Ideal.ofBits .f32 0x00000000#32) := by
  rw [val_main_v109_apply, val_main_v108_apply, val_main_v105_apply, val_main_v104_apply, val_main_v103_apply, val_main_v107_apply,
    val_main_v106_apply, val_main_call1_v0_apply, val_main_call1_cst_apply,
    (funext fun a => match a with | ⟨0, _⟩ => rfl | ⟨1, _⟩ => rfl : idx_main_v103 (ix2 p k) = ix2 p (0 : Fin 1)),
    (funext fun a => match a with | ⟨0, _⟩ => rfl : idx_main_v106 (idx_main_v107 (ix2 p k)) = ix1 k)]
  rfl

-- The sum over the rectified first layer times the second weight is the reference's second feature transform.
theorem layer1_eq_ref
    (hxw : (W (Proc.devRef .tc main_v54_1) : S2000000x32.Idx → EReal) = val_main_v60 (F := Ideal) x0 x1 x2 x3 x4 x5 x6 x7 x9)
    (h8 : (W (Proc.devRef .tc main_arg8) : S2x4000000.Idx → BitVec 32) = x8)
    (h10 : (W (Proc.devRef .tc main_arg10) : S32.Idx → EReal) = x10)
    (A X : S2000000x32.Idx → EReal) (D : S2000000x1.Idx → EReal) (B : S1x32.Idx → EReal)
    (hA : A = StableHlo.after hostOps1 W (Proc.devRef .tc main_v100))
    (hX : X = StableHlo.after hostOps1 W (Proc.devRef .tc main_v54_1))
    (hD : D = StableHlo.after hostOps1 W (Proc.devRef .tc main_v87))
    (hB : B = StableHlo.after hostOps1 W (Proc.devRef .tc main_v101)) (p : Fin 2000000) (q : Fin 32) :
    (∑ k : Fin 32, max (A (ix2 p k) + X (ix2 p k) * D (ix2 p (0 : Fin 1)) + B (ix2 (0 : Fin 1) k))
        (Ideal.ofBits .f32 0x00000000#32) * x11 (ix2 k q))
      = val_main_v114 (F := Ideal) x0 x1 x2 x3 x4 x5 x6 x7 x8 x9 x10 x11 (ix2 p q) := by
  rw [val_main_v114_apply, hA, hX, hD, hB, hostOps1_agg_ref x0 x1 x2 x3 x4 x5 x6 x7 x8 x9 W hxw h8, hostOps1_xw, hxw, hostOps1_dis2_ref x8 W h8]
  refine Finset.sum_congr rfl fun k _ => ?_
  rw [(funext fun a => match a with | ⟨0, _⟩ => rfl | ⟨1, _⟩ => rfl : lidx_main_v114 (ix2 p q) k = ix2 p k),
    (funext fun a => match a with | ⟨0, _⟩ => rfl | ⟨1, _⟩ => rfl : ridx_main_v114 (ix2 p q) k = ix2 k q),
    ref_layer1_apply, hostOps1_bias_apply x10 W h10]

end Cert.KernelIdeal.Hand

end
-- ==== Proof.Ideal.HostRead2.lean ====
import proofs.«422434_j9131100471786_3_alg».proof.Proof.Gen.KernelIdeal.Launch
import proofs.«422434_j9131100471786_3_alg».proof.Proof.RefRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx
open Cert.ReferenceIdeal.Read
open scoped BigOperators

variable (W : Valuation τ sig (Elt Ideal))
variable (x0 : S1000000.Idx → EReal) (x1 x2 x3 : S2000000.Idx → EReal) (x4 x5 x6 : S2000000.Idx → BitVec 32)
  (x7 : S1000000.Idx → EReal) (x8 : S2x4000000.Idx → BitVec 32) (x9 : S3x32.Idx → EReal) (x10 : S32.Idx → EReal)
  (x11 : S32x32.Idx → EReal) (x12 : S32.Idx → EReal) (x13 : S32x3.Idx → EReal) (x14 : S3.Idx → EReal)

abbrev after2A : S2000000x32.Idx → EReal := StableHlo.after (hostOps2 (F := Ideal)) W (Proc.devRef .tc main_v115)
abbrev after2X : S2000000x32.Idx → EReal := StableHlo.after (hostOps2 (F := Ideal)) W (Proc.devRef .tc main_v102)
abbrev after2D : S2000000x1.Idx → EReal := StableHlo.after (hostOps2 (F := Ideal)) W (Proc.devRef .tc main_v87)
abbrev after2B : S1x32.Idx → EReal := StableHlo.after (hostOps2 (F := Ideal)) W (Proc.devRef .tc main_v116)
abbrev after2C : S1x3.Idx → EReal := StableHlo.after (hostOps2 (F := Ideal)) W (Proc.devRef .tc main_v117)
abbrev after2T : S2000000x3.Idx → EReal := StableHlo.after (hostOps2 (F := Ideal)) W (Proc.devRef .tc main_v54_0)

set_option maxRecDepth 4096 in
theorem after2_keep_xw2 : after2X W = W (Proc.devRef .tc main_v102) := by
  unfold after2X; after_results

set_option maxRecDepth 4096 in
theorem after2_keep_dsq : after2D W = W (Proc.devRef .tc main_v87) := by
  unfold after2D; after_results

set_option maxRecDepth 4096 in
theorem after2_keep_t : after2T W = W (Proc.devRef .tc main_v54_0) := by
  unfold after2T; after_results

set_option maxRecDepth 4096 in
theorem after2_b2 (k : Fin 32) : after2B W (ix2 0 k) = (W (Proc.devRef .tc main_arg12) : S32.Idx → EReal) (ix1 k) := by
  unfold after2B; after_results
  exact shapeCast_a_1a_apply _ shapeCasts_S32_S1x32 0 k

set_option maxRecDepth 4096 in
theorem after2_bout (q : Fin 3) : after2C W (ix2 0 q) = (W (Proc.devRef .tc main_arg14) : S3.Idx → EReal) (ix1 q) := by
  unfold after2C; after_results
  exact shapeCast_a_1a_apply _ shapeCasts_S3_S1x3 0 q

-- The reference recomputes the squared inverse root of the degree for its second layer by the same operations.
theorem ref_dsq2 : val_main_v156 (F := Ideal) x8 = val_main_v102 (F := Ideal) x8 := rfl

set_option maxRecDepth 4096 in
set_option maxHeartbeats 4000000 in
-- The second aggregation is the reference's: the same gather, scaling and scatter-add on the same operands.
theorem agg2_eq_ref
    (hxw2 : (W (Proc.devRef .tc main_v102) : S2000000x32.Idx → EReal) = val_main_v114 (F := Ideal) x0 x1 x2 x3 x4 x5 x6 x7 x8 x9 x10 x11)
    (hsrc : (W (Proc.devRef .tc main_v56) : S4000000.Idx → BitVec 32) = val_main_v57 (F := Ideal) x8)
    (hdst : (W (Proc.devRef .tc main_v58) : S4000000.Idx → BitVec 32) = val_main_v59 (F := Ideal) x8)
    (hnorm : (W (Proc.devRef .tc main_v85) : S4000000.Idx → EReal) = val_main_v87 (F := Ideal) x8) :
    after2A W = val_main_v154 (F := Ideal) x0 x1 x2 x3 x4 x5 x6 x7 x8 x9 x10 x11 := by
  unfold after2A
  after_results
  rw [hxw2, hsrc, hdst, hnorm]
  rfl

theorem head_eq_ref
    (hxw2 : (W (Proc.devRef .tc main_v102) : S2000000x32.Idx → EReal) = Cert.ReferenceIdeal.Read.val_main_v114 (F := Ideal) x0 x1 x2 x3 x4 x5 x6 x7 x8 x9 x10 x11)
    (hsrc : (W (Proc.devRef .tc main_v56) : S4000000.Idx → BitVec 32) = Cert.ReferenceIdeal.Read.val_main_v57 (F := Ideal) x8)
    (hdst : (W (Proc.devRef .tc main_v58) : S4000000.Idx → BitVec 32) = Cert.ReferenceIdeal.Read.val_main_v59 (F := Ideal) x8)
    (hnorm : (W (Proc.devRef .tc main_v85) : S4000000.Idx → EReal) = Cert.ReferenceIdeal.Read.val_main_v87 (F := Ideal) x8)
    (hdsq : (W (Proc.devRef .tc main_v87) : S2000000x1.Idx → EReal) = Cert.ReferenceIdeal.Read.val_main_v102 (F := Ideal) x8)
    (h12 : (W (Proc.devRef .tc main_arg12) : S32.Idx → EReal) = x12)
    (h14 : (W (Proc.devRef .tc main_arg14) : S3.Idx → EReal) = x14)
    (p : Fin 2000000) (q : Fin 3) :
    (∑ k : Fin 32, max (after2A W (ix2 p k) + after2X W (ix2 p k) * after2D W (ix2 p 0) + after2B W (ix2 0 k))
          (Ideal.ofBits .f32 0x00000000#32) * x13 (ix2 k q))
        + after2C W (ix2 0 q)
      = Cert.ReferenceIdeal.Read.val_main_v167 (F := Ideal) x0 x1 x2 x3 x4 x5 x6 x7 x8 x9 x10 x11 x12 x13 x14 (ix2 p q) := by
  rw [val_main_v167_apply, val_main_v164_apply, val_main_v166_apply, val_main_v165_apply,
    (funext fun a => match a with | ⟨0, _⟩ => rfl : idx_main_v165 (idx_main_v166 (ix2 p q)) = ix1 q),
    agg2_eq_ref W x0 x1 x2 x3 x4 x5 x6 x7 x8 x9 x10 x11 hxw2 hsrc hdst hnorm, after2_keep_xw2, hxw2, after2_keep_dsq, hdsq, after2_bout, h14]
  show _ = (∑ k : Fin 32, _) + _
  refine congrArg₂ (· + ·) (Finset.sum_congr rfl fun k _ => ?_) rfl
  rw [after2_b2, h12,
    (funext fun a => match a with | ⟨0, _⟩ => rfl | ⟨1, _⟩ => rfl : lidx_main_v164 (ix2 p q) k = ix2 p k),
    (funext fun a => match a with | ⟨0, _⟩ => rfl | ⟨1, _⟩ => rfl : ridx_main_v164 (ix2 p q) k = ix2 k q),
    val_main_v163_apply, val_main_call2_v0_apply, val_main_call2_cst_apply, val_main_v162_apply,
    val_main_v159_apply, val_main_v158_apply, val_main_v161_apply, val_main_v160_apply, val_main_v157_apply, ref_dsq2,
    (funext fun a => match a with | ⟨0, _⟩ => rfl | ⟨1, _⟩ => rfl : idx_main_v157 (ix2 p k) = ix2 p 0),
    (funext fun a => match a with | ⟨0, _⟩ => rfl : idx_main_v160 (idx_main_v161 (ix2 p k)) = ix1 k)]
  rfl

end Cert.KernelIdeal.Hand

end
-- ==== Proof.Ideal.HostRead3.lean ====
import proofs.«422434_j9131100471786_3_alg».proof.Proof.Ideal.HostRead0
import proofs.«422434_j9131100471786_3_alg».proof.Proof.Gen.KernelIdeal.Launch
import proofs.«422434_j9131100471786_3_alg».proof.Proof.RefRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.ReferenceIdeal.Read
open Idealize.ShloMosaic Idealize.ShloMosaic.TcCoe Idealize.ShloMosaic.ValueIdx

variable {F : FTy → Type} [FloatOps F]

theorem after4_v147 (W : Valuation τ sig (Elt F)) :
    StableHlo.after hostOps4 W (Proc.devRef .tc main_v147) = W (Proc.devRef .tc main_v147) := by
  after_results

-- Column `q` of a three-column array, sliced out and flattened, read at `p` is the array at `(p, q)`.
theorem h3_col_apply {α : Type} (X : S2000000x3.Idx → α) (o : Nat) (h : S2000000x3.Slices ![0, o] S2000000x1) (q : Fin 3) (hq : q.val = o)
    (p : Fin 2000000) :
    shapeCast S2000000 (extractStridedSlice S2000000x1 ![0, o] X h) shapeCasts_S2000000x1_S2000000 (ix1 p) = X (ix2 p q) := by
  refine (shapeCast_apply _ shapeCasts_S2000000x1_S2000000 (ix1 p) (ix2 p (0 : Fin 1)) ?_).trans ?_
  · rewrite [Shape.rowMajor_val_two, Shape.rowMajor_val_one]
    show p.val * 1 + 0 = p.val
    omega
  · exact slice2_axis1_apply o X h p (0 : Fin 1) q (by rw [hq]; rfl)

-- Slicing a column commutes with an entrywise difference.
theorem h3_col_sub {X T D : S2000000x3.Idx → EReal} (hX : ∀ p q, X (ix2 p q) = T (ix2 p q) - D (ix2 p q)) (o : Nat)
    (h : S2000000x3.Slices ![0, o] S2000000x1) (q : Fin 3) (hq : q.val = o) (p : Fin 2000000) :
    shapeCast S2000000 (extractStridedSlice S2000000x1 ![0, o] X h) shapeCasts_S2000000x1_S2000000 (ix1 p)
      = T (ix2 p q) - shapeCast S2000000 (extractStridedSlice S2000000x1 ![0, o] D h) shapeCasts_S2000000x1_S2000000 (ix1 p) := by
  rw [h3_col_apply X o h q hq, h3_col_apply D o h q hq, hX]

variable (W : Valuation τ sig (Elt Ideal)) (x0 : S1000000.Idx → EReal) (x1 x2 x3 : S2000000.Idx → EReal) (x4 x5 x6 : S2000000.Idx → BitVec 32) (x7 : S1000000.Idx → EReal) (x8 : S2x4000000.Idx → BitVec 32) (x9 : S3x32.Idx → EReal) (x10 : S32.Idx → EReal) (x11 : S32x32.Idx → EReal) (x12 : S32.Idx → EReal) (x13 : S32x3.Idx → EReal) (x14 : S3.Idx → EReal)

set_option maxRecDepth 4096 in
set_option maxHeartbeats 4000000 in
-- The stretch and the reference scatter the same three columns of the same array at the same wrapped indices.
theorem hostOps3_v146
    (hd : (W (Proc.devRef .tc main_v118_0) : S2000000x3.Idx → EReal) = val_main_v167 (F := Ideal) x0 x1 x2 x3 x4 x5 x6 x7 x8 x9 x10 x11 x12 x13 x14)
    (h4 : (W (Proc.devRef .tc main_arg4) : S2000000.Idx → BitVec 32) = x4)
    (h5 : (W (Proc.devRef .tc main_arg5) : S2000000.Idx → BitVec 32) = x5)
    (h6 : (W (Proc.devRef .tc main_arg6) : S2000000.Idx → BitVec 32) = x6) :
    (StableHlo.after hostOps3 W (Proc.devRef .tc main_v146) : S1000000.Idx → EReal) = val_main_v204 (F := Ideal) x0 x1 x2 x3 x4 x5 x6 x7 x8 x9 x10 x11 x12 x13 x14 := by
  subst h4 h5 h6
  after_results_simp
  rw [hd]
  rfl

theorem edge_eq_ref_pay (p : Fin 1000000) :
    FloatOps.addf (F := Ideal) (φ := .f32)
        (Scalar.select (FloatOps.cmpf (F := Ideal) (φ := .f32) .ogt (x7 (ix1 p)) (Scalar.ofBits (F := Ideal) .f32 0x00000000#32))
          (Scalar.ofBits (F := Ideal) .f32 0x00000000#32) (x0 (ix1 p)))
        (val_main_v204 (F := Ideal) x0 x1 x2 x3 x4 x5 x6 x7 x8 x9 x10 x11 x12 x13 x14 (ix1 p))
      = val_main_v205 (F := Ideal) x0 x1 x2 x3 x4 x5 x6 x7 x8 x9 x10 x11 x12 x13 x14 (ix1 p) := by
  rw [val_main_v205_apply, val_main_v51_apply, val_main_v49_apply, val_main_v48_apply, val_main_v50_apply, val_main_cst_apply, val_main_cst_11_apply]

variable (ht : ∀ (p : Fin 2000000) (q : Fin 3), (W (Proc.devRef .tc main_v118_1) : S2000000x3.Idx → EReal) (ix2 p q)
        = val_main_v55 (F := Ideal) x0 x1 x2 x3 x4 x5 x6 x7 (ix2 p q) - val_main_v167 (F := Ideal) x0 x1 x2 x3 x4 x5 x6 x7 x8 x9 x10 x11 x12 x13 x14 (ix2 p q))
include ht

-- Each result is a column of t − delta; the reference subtracts the same column of delta from the same column of t.
theorem hostOps4_v149 :
    (StableHlo.after hostOps4 W (Proc.devRef .tc main_v149) : S2000000.Idx → EReal) = val_main_v170 (F := Ideal) x0 x1 x2 x3 x4 x5 x6 x7 x8 x9 x10 x11 x12 x13 x14 := by
  after_results
  funext j
  obtain ⟨p, rfl⟩ : ∃ p : Fin 2000000, j = ix1 p := ⟨j 0, eq_ix1 j⟩
  refine (h3_col_sub ht 0 slices_S2000000x3_S2000000x1_0_0 0 rfl p).trans ?_
  rw [ref_v55_apply, val_main_v170_apply]
  rfl
theorem hostOps4_v151 :
    (StableHlo.after hostOps4 W (Proc.devRef .tc main_v151) : S2000000.Idx → EReal) = val_main_v173 (F := Ideal) x0 x1 x2 x3 x4 x5 x6 x7 x8 x9 x10 x11 x12 x13 x14 := by
  after_results
  funext j
  obtain ⟨p, rfl⟩ : ∃ p : Fin 2000000, j = ix1 p := ⟨j 0, eq_ix1 j⟩
  refine (h3_col_sub ht 1 slices_S2000000x3_S2000000x1_0_1 1 rfl p).trans ?_
  rw [ref_v55_apply, val_main_v173_apply]
  rfl
theorem hostOps4_v153 :
    (StableHlo.after hostOps4 W (Proc.devRef .tc main_v153) : S2000000.Idx → EReal) = val_main_v176 (F := Ideal) x0 x1 x2 x3 x4 x5 x6 x7 x8 x9 x10 x11 x12 x13 x14 := by
  after_results
  funext j
  obtain ⟨p, rfl⟩ : ∃ p : Fin 2000000, j = ix1 p := ⟨j 0, eq_ix1 j⟩
  refine (h3_col_sub ht 2 slices_S2000000x3_S2000000x1_0_2 2 rfl p).trans ?_
  rw [ref_v55_apply, val_main_v176_apply]
  rfl

end Cert.KernelIdeal.Hand

end
-- ==== Proof.Ideal.KValue.lean ====
import proofs.«422434_j9131100471786_3_alg».proof.Proof.Ideal.Run
import proofs.«422434_j9131100471786_3_alg».proof.Proof.Ideal.Val0
import proofs.«422434_j9131100471786_3_alg».proof.Proof.Ideal.Val1
import proofs.«422434_j9131100471786_3_alg».proof.Proof.Ideal.Val2
import proofs.«422434_j9131100471786_3_alg».proof.Proof.Ideal.Val3
import proofs.«422434_j9131100471786_3_alg».proof.Proof.Ideal.HostRead0
import proofs.«422434_j9131100471786_3_alg».proof.Proof.Ideal.HostRead1
import proofs.«422434_j9131100471786_3_alg».proof.Proof.Ideal.HostRead2
import proofs.«422434_j9131100471786_3_alg».proof.Proof.Ideal.HostRead3
import proofs.«422434_j9131100471786_3_alg».proof.Proof.RefRead
import Idealize.ShloMosaic.Lib.ValueIdx
import Idealize.ShloMosaic.Lib.Pipeline.Value

set_option maxRecDepth 16384

noncomputable section

namespace Cert.KernelIdeal.Hand

open Cert.KernelIdeal Cert.KernelIdeal.Gen Cert.ReferenceIdeal.Read
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg) (c : Dev nD)

abbrev a0 : S1000000.Idx → EReal := m ((c : Thread nD τ).loc main_arg0)
abbrev a1 : S2000000.Idx → EReal := m ((c : Thread nD τ).loc main_arg1)
abbrev a2 : S2000000.Idx → EReal := m ((c : Thread nD τ).loc main_arg2)
abbrev a3 : S2000000.Idx → EReal := m ((c : Thread nD τ).loc main_arg3)
abbrev a4 : S2000000.Idx → BitVec 32 := m ((c : Thread nD τ).loc main_arg4)
abbrev a5 : S2000000.Idx → BitVec 32 := m ((c : Thread nD τ).loc main_arg5)
abbrev a6 : S2000000.Idx → BitVec 32 := m ((c : Thread nD τ).loc main_arg6)
abbrev a7 : S1000000.Idx → EReal := m ((c : Thread nD τ).loc main_arg7)
abbrev a8 : S2x4000000.Idx → BitVec 32 := m ((c : Thread nD τ).loc main_arg8)
abbrev a9 : S3x32.Idx → EReal := m ((c : Thread nD τ).loc main_arg9)
abbrev a10 : S32.Idx → EReal := m ((c : Thread nD τ).loc main_arg10)
abbrev a11 : S32x32.Idx → EReal := m ((c : Thread nD τ).loc main_arg11)
abbrev a12 : S32.Idx → EReal := m ((c : Thread nD τ).loc main_arg12)
abbrev a13 : S32x3.Idx → EReal := m ((c : Thread nD τ).loc main_arg13)
abbrev a14 : S3.Idx → EReal := m ((c : Thread nD τ).loc main_arg14)

-- The reference's updated triplet values and its delta, at the launch arguments.
abbrev refT : S2000000x3.Idx → EReal := val_main_v55 (F := Ideal) (a0 m c) (a1 m c) (a2 m c) (a3 m c) (a4 m c) (a5 m c) (a6 m c) (a7 m c)
abbrev refD : S2000000x3.Idx → EReal := val_main_v167 (F := Ideal) (a0 m c) (a1 m c) (a2 m c) (a3 m c) (a4 m c) (a5 m c) (a6 m c) (a7 m c) (a8 m c) (a9 m c) (a10 m c) (a11 m c) (a12 m c) (a13 m c) (a14 m c)

theorem tnew_W2 (p : Fin 2000000) (q : Fin 3) :
    (W2 m ρ c (Proc.devRef .tc main_v54_0) : S2000000x3.Idx → EReal) (ix2 p q) = refT m c (ix2 p q) := by
  refine (congrFun (W2_arr m ρ c 4) (ix2 p q)).trans ?_
  rw [final0_4 (V1 m ρ) c p q]
  exact tnew_eq_ref (W0 m ρ c) _ _ _ _ _ _ _ _
    rfl rfl rfl rfl rfl rfl rfl rfl (X53 (V1 m ρ) c) (X24 (V1 m ρ) c) (X49 (V1 m ρ) c) rfl rfl rfl p q

theorem xw1_W2 :
    (W2 m ρ c (Proc.devRef .tc main_v54_1) : S2000000x32.Idx → EReal) = val_main_v60 (F := Ideal) (a0 m c) (a1 m c) (a2 m c) (a3 m c) (a4 m c) (a5 m c) (a6 m c) (a7 m c) (a9 m c) := by
  funext i
  obtain ⟨p, q, rfl⟩ : ∃ (p : Fin 2000000) (q : Fin 32), i = ix2 p q := ⟨i 0, i 1, eq_ix2 i⟩
  refine ((congrFun (W2_arr m ρ c 5) (ix2 p q)).trans (final0_5 (V1 m ρ) c p q)).trans ?_
  rw [val_main_v60_apply]
  show (_ : EReal) = _
  have e9 : X9 (V1 m ρ) c = a9 m c := W1_arg m ρ c untouched_main_arg9
  refine Finset.sum_congr rfl fun k _ => ?_
  have el : lidx_main_v60 (ix2 p q) k = ix2 p k :=
    funext fun a => Fin.ext (by match a with | ⟨0, _⟩ => rfl | ⟨1, _⟩ => rfl)
  have er : ridx_main_v60 (ix2 p q) k = ix2 k q :=
    funext fun a => Fin.ext (by match a with | ⟨0, _⟩ => rfl | ⟨1, _⟩ => rfl)
  rw [el, er, e9, tnew_eq_ref (W0 m ρ c) (a0 m c) (a7 m c) (a1 m c) (a2 m c) (a3 m c) (a4 m c) (a5 m c) (a6 m c)
    rfl rfl rfl rfl rfl rfl rfl rfl (X53 (V1 m ρ) c) (X24 (V1 m ρ) c) (X49 (V1 m ρ) c) rfl rfl rfl p k]

theorem xw2_W4 :
    (W4 m ρ c (Proc.devRef .tc main_v102) : S2000000x32.Idx → EReal) = val_main_v114 (F := Ideal) (a0 m c) (a1 m c) (a2 m c) (a3 m c) (a4 m c) (a5 m c) (a6 m c) (a7 m c) (a8 m c) (a9 m c) (a10 m c) (a11 m c) := by
  funext i
  obtain ⟨p, q, rfl⟩ : ∃ (p : Fin 2000000) (q : Fin 32), i = ix2 p q := ⟨i 0, i 1, eq_ix2 i⟩
  refine (congrFun (W4_arr m ρ c 5) (ix2 p q)).trans ?_
  have e11 : X11 (V3 m ρ) c = a11 m c := W3_arg m ρ c untouched_main_arg11
  rw [final1_5 (V3 m ρ) c p q, e11]
  exact layer1_eq_ref _ _ _ _ _ _ _ _ _ _ _ _ (W2 m ρ c) (xw1_W2 m ρ c)
    (W2_arg m ρ c untouched_main_arg8) (W2_arg m ρ c untouched_main_arg10) _ _ _ _ rfl rfl rfl rfl p q

-- Region 1 and the stretch after it do not write the updated triplet values.
theorem tnew_W4 (p : Fin 2000000) (q : Fin 3) :
    (W4 m ρ c (Proc.devRef .tc main_v54_0) : S2000000x3.Idx → EReal) (ix2 p q) = refT m c (ix2 p q) := by
  have e : W4 m ρ c (Proc.devRef .tc main_v54_0) = W2 m ρ c (Proc.devRef .tc main_v54_0) :=
    (W4_keep m ρ c main_v54_0 (by decide)).trans (W3_of m ρ c main_v54_0 (by decide))
  rw [e]; exact tnew_W2 m ρ c p q

theorem delta2_ref (p : Fin 2000000) (q : Fin 3) : Val2.delta2 (V5 m ρ) c p q = refD m c (ix2 p q) := by
  have e13 : Val2.X13 (V5 m ρ) c = a13 m c := W5_arg m ρ c untouched_main_arg13
  unfold Val2.delta2
  rw [e13]
  exact head_eq_ref (W4 m ρ c) _ _ _ _ _ _ _ _ _ _ _ _ _ _ _ (xw2_W4 m ρ c)
    ((W4_keep m ρ c main_v56 (by decide)).trans (hostOps1_src_ref _ (W2 m ρ c) (W2_arg m ρ c untouched_main_arg8)))
    ((W4_keep m ρ c main_v58 (by decide)).trans (hostOps1_dst_ref _ (W2 m ρ c) (W2_arg m ρ c untouched_main_arg8)))
    ((W4_keep m ρ c main_v85 (by decide)).trans (hostOps1_norm_ref _ (W2 m ρ c) (W2_arg m ρ c untouched_main_arg8)))
    ((W4_keep m ρ c main_v87 (by decide)).trans (hostOps1_dis2_ref _ (W2 m ρ c) (W2_arg m ρ c untouched_main_arg8)))
    (W4_arg m ρ c untouched_main_arg12) (W4_arg m ρ c untouched_main_arg14) p q

theorem delta_eq : (W6 m ρ c (Proc.devRef .tc main_v118_0) : S2000000x3.Idx → EReal) = refD m c := by
  funext i
  obtain ⟨p, q, rfl⟩ : ∃ (p : Fin 2000000) (q : Fin 3), i = ix2 p q := ⟨i 0, i 1, eq_ix2 i⟩
  exact ((congrFun (W6_arr m ρ c 7) (ix2 p q)).trans (Val2.final2_7 (V5 m ρ) c p q)).trans (delta2_ref m ρ c p q)

theorem tout_W8 (p : Fin 2000000) (q : Fin 3) :
    (W8 m ρ c (Proc.devRef .tc main_v118_1) : S2000000x3.Idx → EReal) (ix2 p q) = refT m c (ix2 p q) - refD m c (ix2 p q) := by
  have e : W8 m ρ c (Proc.devRef .tc main_v118_1) = W6 m ρ c (Proc.devRef .tc main_v118_1) :=
    (W8_keep m ρ c main_v118_1 (by decide)).trans (W7_of m ρ c main_v118_1 (by decide))
  have hL : (W6 m ρ c (Proc.devRef .tc main_v118_1) : S2000000x3.Idx → EReal) (ix2 p q)
      = Val2.X54 (V5 m ρ) c (ix2 p q) - Val2.delta2 (V5 m ρ) c p q :=
    (congrFun (W6_arr m ρ c 8) (ix2 p q)).trans (Val2.final2_8 (V5 m ρ) c p q)
  have ht : Val2.X54 (V5 m ρ) c (ix2 p q) = refT m c (ix2 p q) :=
    (congrFun (after2_keep_t (W4 m ρ c)) (ix2 p q)).trans (tnew_W4 m ρ c p q)
  rw [e, hL, ht, delta2_ref m ρ c p q]

theorem upd_eq :
    (W7 m ρ c (Proc.devRef .tc main_v146) : S1000000.Idx → EReal) = val_main_v204 (F := Ideal) (a0 m c) (a1 m c) (a2 m c) (a3 m c) (a4 m c) (a5 m c) (a6 m c) (a7 m c) (a8 m c) (a9 m c) (a10 m c) (a11 m c) (a12 m c) (a13 m c) (a14 m c) :=
  hostOps3_v146 (W6 m ρ c) _ _ _ _ _ _ _ _ _ _ _ _ _ _ _ (delta_eq m ρ c)
    (W6_arg m ρ c untouched_main_arg4) (W6_arg m ρ c untouched_main_arg5) (W6_arg m ρ c untouched_main_arg6)

theorem kout0 : (W9 m ρ c (Proc.devRef .tc main_v147) : S1000000.Idx → EReal) = val_main_v205 (F := Ideal) (a0 m c) (a1 m c) (a2 m c) (a3 m c) (a4 m c) (a5 m c) (a6 m c) (a7 m c) (a8 m c) (a9 m c) (a10 m c) (a11 m c) (a12 m c) (a13 m c) (a14 m c) := by
  refine (after4_v147 (F := Ideal) (W8 m ρ c)).trans ?_
  funext i
  obtain ⟨p, rfl⟩ : ∃ p : Fin 1000000, i = ix1 p := ⟨i 0, eq_ix1 i⟩
  refine (congrFun (W8_arr m ρ c 3) (ix1 p)).trans ?_
  have e0 : (V7 m ρ c main_arg0 : S1000000.Idx → EReal) = a0 m c := W7_arg m ρ c untouched_main_arg0
  have e7 : (V7 m ρ c main_arg7 : S1000000.Idx → EReal) = a7 m c := W7_arg m ρ c untouched_main_arg7
  have eu : (V7 m ρ c main_v146 : S1000000.Idx → EReal) = _ := upd_eq m ρ c
  rw [final3_3_apply (F := Ideal) (V7 m ρ) c p, e0, e7, eu]
  exact edge_eq_ref_pay _ _ _ _ _ _ _ _ _ _ _ _ _ _ _ p
theorem kout1 : (W9 m ρ c (Proc.devRef .tc main_v149) : S2000000.Idx → EReal) = val_main_v170 (F := Ideal) (a0 m c) (a1 m c) (a2 m c) (a3 m c) (a4 m c) (a5 m c) (a6 m c) (a7 m c) (a8 m c) (a9 m c) (a10 m c) (a11 m c) (a12 m c) (a13 m c) (a14 m c) :=
  hostOps4_v149 (W8 m ρ c) _ _ _ _ _ _ _ _ _ _ _ _ _ _ _ (tout_W8 m ρ c)
theorem kout2 : (W9 m ρ c (Proc.devRef .tc main_v151) : S2000000.Idx → EReal) = val_main_v173 (F := Ideal) (a0 m c) (a1 m c) (a2 m c) (a3 m c) (a4 m c) (a5 m c) (a6 m c) (a7 m c) (a8 m c) (a9 m c) (a10 m c) (a11 m c) (a12 m c) (a13 m c) (a14 m c) :=
  hostOps4_v151 (W8 m ρ c) _ _ _ _ _ _ _ _ _ _ _ _ _ _ _ (tout_W8 m ρ c)
theorem kout3 : (W9 m ρ c (Proc.devRef .tc main_v153) : S2000000.Idx → EReal) = val_main_v176 (F := Ideal) (a0 m c) (a1 m c) (a2 m c) (a3 m c) (a4 m c) (a5 m c) (a6 m c) (a7 m c) (a8 m c) (a9 m c) (a10 m c) (a11 m c) (a12 m c) (a13 m c) (a14 m c) :=
  hostOps4_v153 (W8 m ρ c) _ _ _ _ _ _ _ _ _ _ _ _ _ _ _ (tout_W8 m ρ c)

end Cert.KernelIdeal.Hand

end
-- ==== Proof.RefRun.lean ====
import proofs.«422434_j9131100471786_3_alg».proof.Proof.RefOps
import proofs.«422434_j9131100471786_3_alg».proof.Proof.RefRead
import Idealize.ShloMosaic.Lib.Pipeline.Frame

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

theorem ops_cut : (ops : List (HloOp τ sig (Elt F))) = c1 ++ (c2 ++ (c3 ++ c4)) := rfl

/-- Running the whole line is running its four stretches one after the other. -/
theorem after_ops (W : Valuation τ sig (Elt F)) :
    after ops W = after c4 (after c3 (after c2 (after c1 W))) := by
  rw [ops_cut, StableHlo.after_append, StableHlo.after_append, StableHlo.after_append]

abbrev w1 : List (Ref sig .tc) :=
  [main_c, main_v0, main_v1, main_c_0, main_v2, main_v3, main_v4, main_v5, main_v6, main_c_1, main_v7, main_v8, main_c_2, main_v9, main_v10, main_v11, main_v12, main_v13, main_v14, main_v15, main_c_3, main_v16, main_v17, main_c_4, main_v18, main_v19, main_v20, main_v21, main_v22, main_c_5, main_v23, main_v24, main_c_6, main_v25, main_v26, main_v27, main_v28, main_v29, main_v30, main_v31, main_c_7, main_v32, main_v33, main_c_8, main_v34, main_v35, main_v36, main_v37, main_v38, main_c_9, main_v39, main_v40, main_c_10, main_v41, main_v42, main_v43, main_v44, main_v45, main_v46, main_v47, main_cst, main_v48, main_v49, main_cst_11, main_v50, main_v51, main_v52, main_v53, main_v54]

abbrev w2 : List (Ref sig .tc) :=
  [main_v55, main_v56, main_v57, main_v58, main_v59, main_v60, main_cst_12, main_v61, main_c_13, main_v62, main_v63, main_c_14, main_v64, main_v65, main_v66, main_v67, main_cst_15, main_v68, main_v69, main_cst_16, main_v70, main_v71, main_v72, main_c_17, main_v73, main_v74, main_c_18, main_v75, main_v76, main_v77, main_v78, main_v79, main_c_19, main_v80, main_v81, main_c_20, main_v82, main_v83, main_v84, main_v85, main_v86, main_v87, main_c_21, main_v88, main_v89, main_c_22, main_v90, main_v91, main_v92, main_v93, main_v94, main_v95, main_v96, main_v97, main_cst_23, main_v98, main_v99, main_v100, main_v101, main_v102, main_v103, main_v104, main_v105, main_v106, main_v107, main_v108, main_call1_cst, main_call1_v0, main_v109]

abbrev w3 : List (Ref sig .tc) :=
  [main_v110, main_v111, main_v112, main_v113, main_v114, main_cst_24, main_v115, main_c_25, main_v116, main_v117, main_c_26, main_v118, main_v119, main_v120, main_v121, main_cst_27, main_v122, main_v123, main_cst_28, main_v124, main_v125, main_v126, main_c_29, main_v127, main_v128, main_c_30, main_v129, main_v130, main_v131, main_v132, main_v133, main_c_31, main_v134, main_v135, main_c_32, main_v136, main_v137, main_v138, main_v139, main_v140, main_v141, main_c_33, main_v142, main_v143, main_c_34, main_v144, main_v145, main_v146, main_v147, main_v148, main_v149, main_v150, main_v151, main_cst_35, main_v152, main_v153, main_v154, main_v155, main_v156, main_v157, main_v158, main_v159, main_v160, main_v161, main_v162, main_call2_cst, main_call2_v0, main_v163]

abbrev w4 : List (Ref sig .tc) :=
  [main_v164, main_v165, main_v166, main_v167, main_v168, main_v169, main_v170, main_v171, main_v172, main_v173, main_v174, main_v175, main_v176, main_cst_36, main_v177, main_v178, main_v179, main_c_37, main_v180, main_v181, main_c_38, main_v182, main_v183, main_v184, main_v185, main_v186, main_v187, main_v188, main_c_39, main_v189, main_v190, main_c_40, main_v191, main_v192, main_v193, main_v194, main_v195, main_v196, main_v197, main_c_41, main_v198, main_v199, main_c_42, main_v200, main_v201, main_v202, main_v203, main_v204, main_v205]

set_option maxRecDepth 8192 in
set_option maxHeartbeats 4000000 in
theorem c1_writes : (c1 : List (HloOp τ sig (Elt F))).Forall fun op =>
    op.writes ⊆ (w1.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A stretch changes only the buffers its operations write. -/
theorem keep1 (W : Valuation τ sig (Elt F)) (r : Ref sig .tc) (h : r ∉ w1) :
    after c1 W (Proc.devRef .tc r) = W (Proc.devRef .tc r) :=
  after_of_writes_sub c1 W c1_writes h

set_option maxRecDepth 8192 in
set_option maxHeartbeats 4000000 in
theorem c2_writes : (c2 : List (HloOp τ sig (Elt F))).Forall fun op =>
    op.writes ⊆ (w2.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep2 (W : Valuation τ sig (Elt F)) (r : Ref sig .tc) (h : r ∉ w2) :
    after c2 W (Proc.devRef .tc r) = W (Proc.devRef .tc r) :=
  after_of_writes_sub c2 W c2_writes h

set_option maxRecDepth 8192 in
set_option maxHeartbeats 4000000 in
theorem c3_writes : (c3 : List (HloOp τ sig (Elt F))).Forall fun op =>
    op.writes ⊆ (w3.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep3 (W : Valuation τ sig (Elt F)) (r : Ref sig .tc) (h : r ∉ w3) :
    after c3 W (Proc.devRef .tc r) = W (Proc.devRef .tc r) :=
  after_of_writes_sub c3 W c3_writes h

set_option maxRecDepth 8192 in
set_option maxHeartbeats 4000000 in
theorem c4_writes : (c4 : List (HloOp τ sig (Elt F))).Forall fun op =>
    op.writes ⊆ (w4.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep4 (W : Valuation τ sig (Elt F)) (r : Ref sig .tc) (h : r ∉ w4) :
    after c4 W (Proc.devRef .tc r) = W (Proc.devRef .tc r) :=
  after_of_writes_sub c4 W c4_writes h

variable
  (x0 : (⟨S1000000, .f32⟩ : BufTy).Contents (Elt F))
  (x1 : (⟨S2000000, .f32⟩ : BufTy).Contents (Elt F))
  (x2 : (⟨S2000000, .f32⟩ : BufTy).Contents (Elt F))
  (x3 : (⟨S2000000, .f32⟩ : BufTy).Contents (Elt F))
  (x4 : (⟨S2000000, .i32⟩ : BufTy).Contents (Elt F))
  (x5 : (⟨S2000000, .i32⟩ : BufTy).Contents (Elt F))
  (x6 : (⟨S2000000, .i32⟩ : BufTy).Contents (Elt F))
  (x7 : (⟨S1000000, .f32⟩ : BufTy).Contents (Elt F))
  (x8 : (⟨S2x4000000, .i32⟩ : BufTy).Contents (Elt F))
  (x9 : (⟨S3x32, .f32⟩ : BufTy).Contents (Elt F))
  (x10 : (⟨S32, .f32⟩ : BufTy).Contents (Elt F))
  (x11 : (⟨S32x32, .f32⟩ : BufTy).Contents (Elt F))
  (x12 : (⟨S32, .f32⟩ : BufTy).Contents (Elt F))
  (x13 : (⟨S32x3, .f32⟩ : BufTy).Contents (Elt F))
  (x14 : (⟨S3, .f32⟩ : BufTy).Contents (Elt F))

/-- The valuation `W` has the fifteen arguments at `x0 … x14`. -/
def ArgsAt (W : Valuation τ sig (Elt F)) : Prop :=
  W (Proc.devRef .tc main_arg0) = x0
    ∧ W (Proc.devRef .tc main_arg1) = x1
    ∧ W (Proc.devRef .tc main_arg2) = x2
    ∧ W (Proc.devRef .tc main_arg3) = x3
    ∧ W (Proc.devRef .tc main_arg4) = x4
    ∧ W (Proc.devRef .tc main_arg5) = x5
    ∧ W (Proc.devRef .tc main_arg6) = x6
    ∧ W (Proc.devRef .tc main_arg7) = x7
    ∧ W (Proc.devRef .tc main_arg8) = x8
    ∧ W (Proc.devRef .tc main_arg9) = x9
    ∧ W (Proc.devRef .tc main_arg10) = x10
    ∧ W (Proc.devRef .tc main_arg11) = x11
    ∧ W (Proc.devRef .tc main_arg12) = x12
    ∧ W (Proc.devRef .tc main_arg13) = x13
    ∧ W (Proc.devRef .tc main_arg14) = x14

/-- After each stretch: the arguments as before, and every buffer a later stretch reads at its stage function of them. -/
def Lv1 (W : Valuation τ sig (Elt F)) : Prop :=
  ArgsAt x0 x1 x2 x3 x4 x5 x6 x7 x8 x9 x10 x11 x12 x13 x14 W
    ∧ W (Proc.devRef .tc main_v15) = val_main_v15 (F := F) x0 x1 x4 x7
    ∧ W (Proc.devRef .tc main_v31) = val_main_v31 (F := F) x0 x2 x5 x7
    ∧ W (Proc.devRef .tc main_v47) = val_main_v47 (F := F) x0 x3 x6 x7
    ∧ W (Proc.devRef .tc main_v51) = val_main_v51 (F := F) x0 x7
    ∧ W (Proc.devRef .tc main_v52) = val_main_v52 (F := F) x0 x1 x4 x7
    ∧ W (Proc.devRef .tc main_v53) = val_main_v53 (F := F) x0 x2 x5 x7
    ∧ W (Proc.devRef .tc main_v54) = val_main_v54 (F := F) x0 x3 x6 x7

def Lv2 (W : Valuation τ sig (Elt F)) : Prop :=
  ArgsAt x0 x1 x2 x3 x4 x5 x6 x7 x8 x9 x10 x11 x12 x13 x14 W
    ∧ W (Proc.devRef .tc main_v15) = val_main_v15 (F := F) x0 x1 x4 x7
    ∧ W (Proc.devRef .tc main_v31) = val_main_v31 (F := F) x0 x2 x5 x7
    ∧ W (Proc.devRef .tc main_v47) = val_main_v47 (F := F) x0 x3 x6 x7
    ∧ W (Proc.devRef .tc main_v51) = val_main_v51 (F := F) x0 x7
    ∧ W (Proc.devRef .tc main_v109) = val_main_v109 (F := F) x0 x1 x2 x3 x4 x5 x6 x7 x8 x9 x10

def Lv3 (W : Valuation τ sig (Elt F)) : Prop :=
  ArgsAt x0 x1 x2 x3 x4 x5 x6 x7 x8 x9 x10 x11 x12 x13 x14 W
    ∧ W (Proc.devRef .tc main_v15) = val_main_v15 (F := F) x0 x1 x4 x7
    ∧ W (Proc.devRef .tc main_v31) = val_main_v31 (F := F) x0 x2 x5 x7
    ∧ W (Proc.devRef .tc main_v47) = val_main_v47 (F := F) x0 x3 x6 x7
    ∧ W (Proc.devRef .tc main_v51) = val_main_v51 (F := F) x0 x7
    ∧ W (Proc.devRef .tc main_v163) = val_main_v163 (F := F) x0 x1 x2 x3 x4 x5 x6 x7 x8 x9 x10 x11 x12

def Lv4 (W : Valuation τ sig (Elt F)) : Prop :=
  ArgsAt x0 x1 x2 x3 x4 x5 x6 x7 x8 x9 x10 x11 x12 x13 x14 W
    ∧ W (Proc.devRef .tc main_v205) = val_main_v205 (F := F) x0 x1 x2 x3 x4 x5 x6 x7 x8 x9 x10 x11 x12 x13 x14
    ∧ W (Proc.devRef .tc main_v170) = val_main_v170 (F := F) x0 x1 x2 x3 x4 x5 x6 x7 x8 x9 x10 x11 x12 x13 x14
    ∧ W (Proc.devRef .tc main_v173) = val_main_v173 (F := F) x0 x1 x2 x3 x4 x5 x6 x7 x8 x9 x10 x11 x12 x13 x14
    ∧ W (Proc.devRef .tc main_v176) = val_main_v176 (F := F) x0 x1 x2 x3 x4 x5 x6 x7 x8 x9 x10 x11 x12 x13 x14

variable {x0 x1 x2 x3 x4 x5 x6 x7 x8 x9 x10 x11 x12 x13 x14}

abbrev argRefs : List (Ref sig .tc) :=
  [main_arg0, main_arg1, main_arg2, main_arg3, main_arg4, main_arg5, main_arg6, main_arg7, main_arg8, main_arg9, main_arg10, main_arg11, main_arg12, main_arg13, main_arg14]

theorem ArgsAt.keep {W W' : Valuation τ sig (Elt F)} (h : ArgsAt x0 x1 x2 x3 x4 x5 x6 x7 x8 x9 x10 x11 x12 x13 x14 W)
    (k : ∀ r ∈ (argRefs : List (Ref sig .tc)), W' (Proc.devRef .tc r) = W (Proc.devRef .tc r)) : ArgsAt x0 x1 x2 x3 x4 x5 x6 x7 x8 x9 x10 x11 x12 x13 x14 W' := by
  obtain ⟨a0, a1, a2, a3, a4, a5, a6, a7, a8, a9, a10, a11, a12, a13, a14⟩ := h
  exact ⟨(k main_arg0 (by decide)).trans a0,
    (k main_arg1 (by decide)).trans a1,
    (k main_arg2 (by decide)).trans a2,
    (k main_arg3 (by decide)).trans a3,
    (k main_arg4 (by decide)).trans a4,
    (k main_arg5 (by decide)).trans a5,
    (k main_arg6 (by decide)).trans a6,
    (k main_arg7 (by decide)).trans a7,
    (k main_arg8 (by decide)).trans a8,
    (k main_arg9 (by decide)).trans a9,
    (k main_arg10 (by decide)).trans a10,
    (k main_arg11 (by decide)).trans a11,
    (k main_arg12 (by decide)).trans a12,
    (k main_arg13 (by decide)).trans a13,
    (k main_arg14 (by decide)).trans a14⟩

/-- No operation writes an argument. -/
theorem args_not_written : ∀ r ∈ (argRefs : List (Ref sig .tc)), r ∉ w1 ∧ r ∉ w2 ∧ r ∉ w3 ∧ r ∉ w4 := by decide

set_option maxRecDepth 4096 in
set_option maxHeartbeats 4000000 in
theorem c1_v15 {W : Valuation τ sig (Elt F)} (hA : ArgsAt x0 x1 x2 x3 x4 x5 x6 x7 x8 x9 x10 x11 x12 x13 x14 W) :
    after c1 W (Proc.devRef .tc main_v15) = val_main_v15 (F := F) x0 x1 x4 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v31 {W : Valuation τ sig (Elt F)} (hA : ArgsAt x0 x1 x2 x3 x4 x5 x6 x7 x8 x9 x10 x11 x12 x13 x14 W) :
    after c1 W (Proc.devRef .tc main_v31) = val_main_v31 (F := F) x0 x2 x5 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v47 {W : Valuation τ sig (Elt F)} (hA : ArgsAt x0 x1 x2 x3 x4 x5 x6 x7 x8 x9 x10 x11 x12 x13 x14 W) :
    after c1 W (Proc.devRef .tc main_v47) = val_main_v47 (F := F) x0 x3 x6 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v51 {W : Valuation τ sig (Elt F)} (hA : ArgsAt x0 x1 x2 x3 x4 x5 x6 x7 x8 x9 x10 x11 x12 x13 x14 W) :
    after c1 W (Proc.devRef .tc main_v51) = val_main_v51 (F := F) x0 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v52 {W : Valuation τ sig (Elt F)} (hA : ArgsAt x0 x1 x2 x3 x4 x5 x6 x7 x8 x9 x10 x11 x12 x13 x14 W) :
    after c1 W (Proc.devRef .tc main_v52) = val_main_v52 (F := F) x0 x1 x4 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v53 {W : Valuation τ sig (Elt F)} (hA : ArgsAt x0 x1 x2 x3 x4 x5 x6 x7 x8 x9 x10 x11 x12 x13 x14 W) :
    after c1 W (Proc.devRef .tc main_v53) = val_main_v53 (F := F) x0 x2 x5 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c1_v54 {W : Valuation τ sig (Elt F)} (hA : ArgsAt x0 x1 x2 x3 x4 x5 x6 x7 x8 x9 x10 x11 x12 x13 x14 W) :
    after c1 W (Proc.devRef .tc main_v54) = val_main_v54 (F := F) x0 x3 x6 x7 := by
  obtain ⟨rfl, rfl, rfl, rfl, rfl, rfl, rfl, rfl, rfl, rfl, rfl, rfl, rfl, rfl, rfl⟩ := hA
  after_results_simp
  rfl

set_option maxRecDepth 4096 in
set_option maxHeartbeats 4000000 in
theorem c2_v109 {W : Valuation τ sig (Elt F)} (hA : ArgsAt x0 x1 x2 x3 x4 x5 x6 x7 x8 x9 x10 x11 x12 x13 x14 W)
    (h52 : W (Proc.devRef .tc main_v52) = val_main_v52 (F := F) x0 x1 x4 x7)
    (h53 : W (Proc.devRef .tc main_v53) = val_main_v53 (F := F) x0 x2 x5 x7)
    (h54 : W (Proc.devRef .tc main_v54) = val_main_v54 (F := F) x0 x3 x6 x7) :
    after c2 W (Proc.devRef .tc main_v109) = val_main_v109 (F := F) x0 x1 x2 x3 x4 x5 x6 x7 x8 x9 x10 := by
  obtain ⟨rfl, rfl, rfl, rfl, rfl, rfl, rfl, rfl, rfl, rfl, rfl, rfl, rfl, rfl, rfl⟩ := hA
  after_results_simp
  dsimp only [Matrix.cons_val]
  rw [h52, h53, h54]
  rfl

set_option maxRecDepth 4096 in
set_option maxHeartbeats 4000000 in
theorem c3_v163 {W : Valuation τ sig (Elt F)} (hA : ArgsAt x0 x1 x2 x3 x4 x5 x6 x7 x8 x9 x10 x11 x12 x13 x14 W)
    (h109 : W (Proc.devRef .tc main_v109) = val_main_v109 (F := F) x0 x1 x2 x3 x4 x5 x6 x7 x8 x9 x10) :
    after c3 W (Proc.devRef .tc main_v163) = val_main_v163 (F := F) x0 x1 x2 x3 x4 x5 x6 x7 x8 x9 x10 x11 x12 := by
  obtain ⟨rfl, rfl, rfl, rfl, rfl, rfl, rfl, rfl, rfl, rfl, rfl, rfl, rfl, rfl, rfl⟩ := hA
  after_results_simp
  rw [h109]
  rfl

set_option maxRecDepth 4096 in
set_option maxHeartbeats 4000000 in
theorem c4_v205 {W : Valuation τ sig (Elt F)} (hA : ArgsAt x0 x1 x2 x3 x4 x5 x6 x7 x8 x9 x10 x11 x12 x13 x14 W)
    (h163 : W (Proc.devRef .tc main_v163) = val_main_v163 (F := F) x0 x1 x2 x3 x4 x5 x6 x7 x8 x9 x10 x11 x12)
    (h51 : W (Proc.devRef .tc main_v51) = val_main_v51 (F := F) x0 x7) :
    after c4 W (Proc.devRef .tc main_v205) = val_main_v205 (F := F) x0 x1 x2 x3 x4 x5 x6 x7 x8 x9 x10 x11 x12 x13 x14 := by
  obtain ⟨rfl, rfl, rfl, rfl, rfl, rfl, rfl, rfl, rfl, rfl, rfl, rfl, rfl, rfl, rfl⟩ := hA
  after_results_simp
  rw [h163, h51]
  rfl

set_option maxRecDepth 4096 in
set_option maxHeartbeats 4000000 in
theorem c4_v170 {W : Valuation τ sig (Elt F)} (hA : ArgsAt x0 x1 x2 x3 x4 x5 x6 x7 x8 x9 x10 x11 x12 x13 x14 W)
    (h163 : W (Proc.devRef .tc main_v163) = val_main_v163 (F := F) x0 x1 x2 x3 x4 x5 x6 x7 x8 x9 x10 x11 x12)
    (h15 : W (Proc.devRef .tc main_v15) = val_main_v15 (F := F) x0 x1 x4 x7) :
    after c4 W (Proc.devRef .tc main_v170) = val_main_v170 (F := F) x0 x1 x2 x3 x4 x5 x6 x7 x8 x9 x10 x11 x12 x13 x14 := by
  obtain ⟨rfl, rfl, rfl, rfl, rfl, rfl, rfl, rfl, rfl, rfl, rfl, rfl, rfl, rfl, rfl⟩ := hA
  after_results_simp
  rw [h163, h15]
  rfl

set_option maxRecDepth 4096 in
set_option maxHeartbeats 4000000 in
theorem c4_v173 {W : Valuation τ sig (Elt F)} (hA : ArgsAt x0 x1 x2 x3 x4 x5 x6 x7 x8 x9 x10 x11 x12 x13 x14 W)
    (h163 : W (Proc.devRef .tc main_v163) = val_main_v163 (F := F) x0 x1 x2 x3 x4 x5 x6 x7 x8 x9 x10 x11 x12)
    (h31 : W (Proc.devRef .tc main_v31) = val_main_v31 (F := F) x0 x2 x5 x7) :
    after c4 W (Proc.devRef .tc main_v173) = val_main_v173 (F := F) x0 x1 x2 x3 x4 x5 x6 x7 x8 x9 x10 x11 x12 x13 x14 := by
  obtain ⟨rfl, rfl, rfl, rfl, rfl, rfl, rfl, rfl, rfl, rfl, rfl, rfl, rfl, rfl, rfl⟩ := hA
  after_results_simp
  rw [h163, h31]
  rfl

set_option maxRecDepth 4096 in
set_option maxHeartbeats 4000000 in
theorem c4_v176 {W : Valuation τ sig (Elt F)} (hA : ArgsAt x0 x1 x2 x3 x4 x5 x6 x7 x8 x9 x10 x11 x12 x13 x14 W)
    (h163 : W (Proc.devRef .tc main_v163) = val_main_v163 (F := F) x0 x1 x2 x3 x4 x5 x6 x7 x8 x9 x10 x11 x12)
    (h47 : W (Proc.devRef .tc main_v47) = val_main_v47 (F := F) x0 x3 x6 x7) :
    after c4 W (Proc.devRef .tc main_v176) = val_main_v176 (F := F) x0 x1 x2 x3 x4 x5 x6 x7 x8 x9 x10 x11 x12 x13 x14 := by
  obtain ⟨rfl, rfl, rfl, rfl, rfl, rfl, rfl, rfl, rfl, rfl, rfl, rfl, rfl, rfl, rfl⟩ := hA
  after_results_simp
  rw [h163, h47]
  rfl

theorem lv1 {W : Valuation τ sig (Elt F)} (hA : ArgsAt x0 x1 x2 x3 x4 x5 x6 x7 x8 x9 x10 x11 x12 x13 x14 W) : Lv1 x0 x1 x2 x3 x4 x5 x6 x7 x8 x9 x10 x11 x12 x13 x14 (after c1 W) :=
  ⟨hA.keep fun r hr => keep1 W r (args_not_written r hr).1,
    c1_v15 hA, c1_v31 hA, c1_v47 hA, c1_v51 hA, c1_v52 hA, c1_v53 hA, c1_v54 hA⟩

theorem lv2 {W : Valuation τ sig (Elt F)} (h : Lv1 x0 x1 x2 x3 x4 x5 x6 x7 x8 x9 x10 x11 x12 x13 x14 W) : Lv2 x0 x1 x2 x3 x4 x5 x6 x7 x8 x9 x10 x11 x12 x13 x14 (after c2 W) := by
  obtain ⟨hA, h15, h31, h47, h51, h52, h53, h54⟩ := h
  exact ⟨hA.keep fun r hr => keep2 W r (args_not_written r hr).2.1,
    (keep2 W main_v15 (by decide)).trans h15, (keep2 W main_v31 (by decide)).trans h31,
    (keep2 W main_v47 (by decide)).trans h47, (keep2 W main_v51 (by decide)).trans h51,
    c2_v109 hA h52 h53 h54⟩

theorem lv3 {W : Valuation τ sig (Elt F)} (h : Lv2 x0 x1 x2 x3 x4 x5 x6 x7 x8 x9 x10 x11 x12 x13 x14 W) : Lv3 x0 x1 x2 x3 x4 x5 x6 x7 x8 x9 x10 x11 x12 x13 x14 (after c3 W) := by
  obtain ⟨hA, h15, h31, h47, h51, h109⟩ := h
  exact ⟨hA.keep fun r hr => keep3 W r (args_not_written r hr).2.2.1,
    (keep3 W main_v15 (by decide)).trans h15, (keep3 W main_v31 (by decide)).trans h31,
    (keep3 W main_v47 (by decide)).trans h47, (keep3 W main_v51 (by decide)).trans h51,
    c3_v163 hA h109⟩

theorem lv4 {W : Valuation τ sig (Elt F)} (h : Lv3 x0 x1 x2 x3 x4 x5 x6 x7 x8 x9 x10 x11 x12 x13 x14 W) : Lv4 x0 x1 x2 x3 x4 x5 x6 x7 x8 x9 x10 x11 x12 x13 x14 (after c4 W) := by
  obtain ⟨hA, h15, h31, h47, h51, h163⟩ := h
  exact ⟨hA.keep fun r hr => keep4 W r (args_not_written r hr).2.2.2,
    c4_v205 hA h163 h51, c4_v170 hA h163 h15, c4_v173 hA h163 h31, c4_v176 hA h163 h47⟩

theorem after_ops_at {W : Valuation τ sig (Elt F)} (hA : ArgsAt x0 x1 x2 x3 x4 x5 x6 x7 x8 x9 x10 x11 x12 x13 x14 W) : Lv4 x0 x1 x2 x3 x4 x5 x6 x7 x8 x9 x10 x11 x12 x13 x14 (after ops W) := by
  rw [after_ops]; exact lv4 (lv3 (lv2 (lv1 hA)))

/-- Every weakly fair execution of @main ends with the four results at their stage functions of the launch arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v205) = val_main_v205 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v170) = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v173) = val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have hA : ArgsAt
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (launchContents m c) :=
        ⟨rfl, rfl, rfl, rfl, rfl, rfl, rfl, rfl, rfl, rfl, rfl, rfl, rfl, rfl, rfl⟩
      obtain ⟨⟨a0, a1, a2, a3, a4, a5, a6, a7, a8, a9, a10, a11, a12, a13, a14⟩, r205, r170, r173, r176⟩ := after_ops_at hA
      exact ⟨(h c main_v205).trans r205, (h c main_v170).trans r170, (h c main_v173).trans r173,
        (h c main_v176).trans r176,
        (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14⟩)
    (run_seq scopedRefs_eq scopedSems_eq defs main (fun _ => ops) main_eq (fun _ => ops_sub) m ρ)

end Cert.ReferenceIdeal.HandRun

end
-- ==== Proof.lean ====
import proofs.«422434_j9131100471786_3_alg».proof.Defs
import proofs.«422434_j9131100471786_3_alg».proof.Proof.Gen.Kernel
import proofs.«422434_j9131100471786_3_alg».proof.Proof.Gen.KernelIdeal
import proofs.«422434_j9131100471786_3_alg».proof.Proof.Gen.ReferenceIdeal
import proofs.«422434_j9131100471786_3_alg».proof.Proof.Gen.Pre_finite_inputs
import proofs.«422434_j9131100471786_3_alg».proof.Proof.Bits.Run
import proofs.«422434_j9131100471786_3_alg».proof.Proof.Ideal.Run
import proofs.«422434_j9131100471786_3_alg».proof.Proof.Ideal.KValue
import proofs.«422434_j9131100471786_3_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

/-- The reference's frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2.2) (Cert.ReferenceIdeal.HandRun.run (F := Ideal) m ρ)

open Cert.KernelIdeal Cert.KernelIdeal.Hand Cert.ReferenceIdeal.Read in
/-- Both idealized programs end at the reference's last stage functions of the launch arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => val_main_v205 (F := Ideal) (a0 m c) (a1 m c) (a2 m c) (a3 m c) (a4 m c) (a5 m c) (a6 m c) (a7 m c) (a8 m c) (a9 m c) (a10 m c) (a11 m c) (a12 m c) (a13 m c) (a14 m c), fun c => val_main_v170 (F := Ideal) (a0 m c) (a1 m c) (a2 m c) (a3 m c) (a4 m c) (a5 m c) (a6 m c) (a7 m c) (a8 m c) (a9 m c) (a10 m c) (a11 m c) (a12 m c) (a13 m c) (a14 m c),
    fun c => val_main_v173 (F := Ideal) (a0 m c) (a1 m c) (a2 m c) (a3 m c) (a4 m c) (a5 m c) (a6 m c) (a7 m c) (a8 m c) (a9 m c) (a10 m c) (a11 m c) (a12 m c) (a13 m c) (a14 m c), fun c => val_main_v176 (F := Ideal) (a0 m c) (a1 m c) (a2 m c) (a3 m c) (a4 m c) (a5 m c) (a6 m c) (a7 m c) (a8 m c) (a9 m c) (a10 m c) (a11 m c) (a12 m c) (a13 m c) (a14 m c), ?_, ?_⟩
  · refine (θ_run defs _ _).mono (fun r h c => ?_) (run_all (F := Ideal) m ρ)
    exact ⟨(h c _ (mem_uc main_v147 (by decide))).trans (kout0 m ρ c),
      (h c _ (mem_uc main_v149 (by decide))).trans (kout1 m ρ c),
      (h c _ (mem_uc main_v151 (by decide))).trans (kout2 m ρ c),
      (h c _ (mem_uc main_v153 (by decide))).trans (kout3 m ρ c),
      (h c _ (mem_uc main_arg0 (by decide))).trans (W9_arg m ρ c untouched_main_arg0),
      (h c _ (mem_uc main_arg1 (by decide))).trans (W9_arg m ρ c untouched_main_arg1),
      (h c _ (mem_uc main_arg2 (by decide))).trans (W9_arg m ρ c untouched_main_arg2),
      (h c _ (mem_uc main_arg3 (by decide))).trans (W9_arg m ρ c untouched_main_arg3),
      (h c _ (mem_uc main_arg4 (by decide))).trans (W9_arg m ρ c untouched_main_arg4),
      (h c _ (mem_uc main_arg5 (by decide))).trans (W9_arg m ρ c untouched_main_arg5),
      (h c _ (mem_uc main_arg6 (by decide))).trans (W9_arg m ρ c untouched_main_arg6),
      (h c _ (mem_uc main_arg7 (by decide))).trans (W9_arg m ρ c untouched_main_arg7),
      (h c _ (mem_uc main_arg8 (by decide))).trans (W9_arg m ρ c untouched_main_arg8),
      (h c _ (mem_uc main_arg9 (by decide))).trans (W9_arg m ρ c untouched_main_arg9),
      (h c _ (mem_uc main_arg10 (by decide))).trans (W9_arg m ρ c untouched_main_arg10),
      (h c _ (mem_uc main_arg11 (by decide))).trans (W9_arg m ρ c untouched_main_arg11),
      (h c _ (mem_uc main_arg12 (by decide))).trans (W9_arg m ρ c untouched_main_arg12),
      (h c _ (mem_uc main_arg13 (by decide))).trans (W9_arg m ρ c untouched_main_arg13),
      (h c _ (mem_uc main_arg14 (by decide))).trans (W9_arg m ρ c untouched_main_arg14)⟩
  · refine (θ_run Cert.ReferenceIdeal.defs _ _).mono (fun r h c => ?_) (Cert.ReferenceIdeal.HandRun.run (F := Ideal) m' ρ')
    obtain ⟨h0, h1, h2, h3, hargs⟩ := h c
    obtain ⟨e0, e1, e2, e3, e4, e5, e6, e7, e8, e9, e10, e11, e12, e13, e14⟩ := hagree c
    refine ⟨h0.trans ?_, h1.trans ?_, h2.trans ?_, h3.trans ?_, hargs⟩ <;>
      rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
